-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S_ : Shape := ⟨0, ![]⟩

class Facts : Prop where
  bcast_S_S64x8x1024 : S_.BroadcastsInDim S64x8x1024 (![] : Fin 0 → Fin S64x8x1024.rank)
  reducesTo_S64x8x1024_S_d0_1_2 : S64x8x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S20000x1024 : S_.BroadcastsInDim S20000x1024 (![] : Fin 0 → Fin S20000x1024.rank)
  reducesTo_S20000x1024_S_d0_1 : S20000x1024.ReducesTo [0, 1] S_
  bcast_S_S20000 : S_.BroadcastsInDim S20000 (![] : Fin 0 → Fin S20000.rank)
  reducesTo_S20000_S_d0 : S20000.ReducesTo [0] S_
  bcast_S_S1024x1024 : S_.BroadcastsInDim S1024x1024 (![] : Fin 0 → Fin S1024x1024.rank)
  reducesTo_S1024x1024_S_d0_1 : S1024x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S256x1024 : S_.BroadcastsInDim S256x1024 (![] : Fin 0 → Fin S256x1024.rank)
  reducesTo_S256x1024_S_d0_1 : S256x1024.ReducesTo [0, 1] S_
  bcast_S_S160000x64 : S_.BroadcastsInDim S160000x64 (![] : Fin 0 → Fin S160000x64.rank)
  reducesTo_S160000x64_S_d0_1 : S160000x64.ReducesTo [0, 1] S_
  bcast_S_S160000 : S_.BroadcastsInDim S160000 (![] : Fin 0 → Fin S160000.rank)
  reducesTo_S160000_S_d0 : S160000.ReducesTo [0] S_
  bcast_S_S64x1024 : S_.BroadcastsInDim S64x1024 (![] : Fin 0 → Fin S64x1024.rank)
  reducesTo_S64x1024_S_d0_1 : S64x1024.ReducesTo [0, 1] S_
  bcast_S_S67735x16 : S_.BroadcastsInDim S67735x16 (![] : Fin 0 → Fin S67735x16.rank)
  reducesTo_S67735x16_S_d0_1 : S67735x16.ReducesTo [0, 1] S_
  bcast_S_S67735 : S_.BroadcastsInDim S67735 (![] : Fin 0 → Fin S67735.rank)
  reducesTo_S67735_S_d0 : S67735.ReducesTo [0] S_
  bcast_S_S16x1024 : S_.BroadcastsInDim S16x1024 (![] : Fin 0 → Fin S16x1024.rank)
  reducesTo_S16x1024_S_d0_1 : S16x1024.ReducesTo [0, 1] S_

variable [Facts]

def fn_part4 {F : FTy → Type} [FloatOps F] (main_arg15 : FVec F S16x1024 .f32) (main_v63 : IVec S_ 1) (main_v67 : IVec S_ 1) : IVec S_ 1 :=
  let main_v68 : IVec S_ 1 := andi main_v63 main_v67
  let main_v69 : FVec F S16x1024 .f32 := Host.absf main_arg15
  let main_cst_26 : FVec F S_ .f32 := constant S_ .f32 0x7F800000#32
  let main_v70 : FVec F S16x1024 .f32 := broadcastInDim S16x1024 ![] bcast_S_S16x1024 main_cst_26
  let main_v71 : IVec S16x1024 1 := cmpf .olt main_v69 main_v70
  let main_c_27 : IVec S_ 1 := constantI S_ 1 1#1
  let main_v72 : IVec S_ 1 := (fun x v => Host.reduce IntOp.andi x v reducesTo_S16x1024_S_d0_1 h_S_) main_v71 main_c_27
  let main_v73 : IVec S_ 1 := andi main_v68 main_v72
  main_v73

def fn_part3 {F : FTy → Type} [FloatOps F] (main_arg12 : FVec F S64x1024 .f32) (main_arg13 : FVec F S67735x16 .f32) (main_arg14 : FVec F S67735 .f32) (main_arg15 : FVec F S16x1024 .f32) (main_v48 : IVec S_ 1) (main_v49 : FVec F S160000 .f32) (main_v50 : FVec F S160000 .f32) : IVec S_ 1 :=
  let main_v51 : IVec S160000 1 := cmpf .olt main_v49 main_v50
  let main_c_19 : IVec S_ 1 := constantI S_ 1 1#1
  let main_v52 : IVec S_ 1 := (fun x v => Host.reduce IntOp.andi x v reducesTo_S160000_S_d0 h_S_) main_v51 main_c_19
  let main_v53 : IVec S_ 1 := andi main_v48 main_v52
  let main_v54 : FVec F S64x1024 .f32 := Host.absf main_arg12
  let main_cst_20 : FVec F S_ .f32 := constant S_ .f32 0x7F800000#32
  let main_v55 : FVec F S64x1024 .f32 := broadcastInDim S64x1024 ![] bcast_S_S64x1024 main_cst_20
  let main_v56 : IVec S64x1024 1 := cmpf .olt main_v54 main_v55
  let main_c_21 : IVec S_ 1 := constantI S_ 1 1#1
  let main_v57 : IVec S_ 1 := (fun x v => Host.reduce IntOp.andi x v reducesTo_S64x1024_S_d0_1 h_S_) main_v56 main_c_21
  let main_v58 : IVec S_ 1 := andi main_v53 main_v57
  let main_v59 : FVec F S67735x16 .f32 := Host.absf main_arg13
  let main_cst_22 : FVec F S_ .f32 := constant S_ .f32 0x7F800000#32
  let main_v60 : FVec F S67735x16 .f32 := broadcastInDim S67735x16 ![] bcast_S_S67735x16 main_cst_22
  let main_v61 : IVec S67735x16 1 := cmpf .olt main_v59 main_v60
  let main_c_23 : IVec S_ 1 := constantI S_ 1 1#1
  let main_v62 : IVec S_ 1 := (fun x v => Host.reduce IntOp.andi x v reducesTo_S67735x16_S_d0_1 h_S_) main_v61 main_c_23
  let main_v63 : IVec S_ 1 := andi main_v58 main_v62
  let main_v64 : FVec F S67735 .f32 := Host.absf main_arg14
  let main_cst_24 : FVec F S_ .f32 := constant S_ .f32 0x7F800000#32
  let main_v65 : FVec F S67735 .f32 := broadcastInDim S67735 ![] bcast_S_S67735 main_cst_24
  let main_v66 : IVec S67735 1 := cmpf .olt main_v64 main_v65
  let main_c_25 : IVec S_ 1 := constantI S_ 1 1#1
  let main_v67 : IVec S_ 1 := (fun x v => Host.reduce IntOp.andi x v reducesTo_S67735_S_d0 h_S_) main_v66 main_c_25
  fn_part4 (F := F) main_arg15 main_v63 main_v67

def fn_part2 {F : FTy → Type} [FloatOps F] (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) (main_v33 : IVec S_ 1) : IVec S_ 1 :=
  let main_v34 : FVec F S20000 .f32 := Host.absf main_arg8
  let main_cst_12 : FVec F S_ .f32 := constant S_ .f32 0x7F800000#32
  let main_v35 : FVec F S20000 .f32 := broadcastInDim S20000 ![] bcast_S_S20000 main_cst_12
  let main_v36 : IVec S20000 1 := cmpf .olt main_v34 main_v35
  let main_c_13 : IVec S_ 1 := constantI S_ 1 1#1
  let main_v37 : IVec S_ 1 := (fun x v => Host.reduce IntOp.andi x v reducesTo_S20000_S_d0 h_S_) main_v36 main_c_13
  let main_v38 : IVec S_ 1 := andi main_v33 main_v37
  let main_v39 : FVec F S256x1024 .f32 := Host.absf main_arg9
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S160000x64 .f32 := Host.absf main_arg10
  let main_cst_16 : FVec F S_ .f32 := constant S_ .f32 0x7F800000#32
  let main_v45 : FVec F S160000x64 .f32 := broadcastInDim S160000x64 ![] bcast_S_S160000x64 main_cst_16
  let main_v46 : IVec S160000x64 1 := cmpf .olt main_v44 main_v45
  let main_c_17 : IVec S_ 1 := constantI S_ 1 1#1
  let main_v47 : IVec S_ 1 := (fun x v => Host.reduce IntOp.andi x v reducesTo_S160000x64_S_d0_1 h_S_) main_v46 main_c_17
  let main_v48 : IVec S_ 1 := andi main_v43 main_v47
  let main_v49 : FVec F S160000 .f32 := Host.absf main_arg11
  let main_cst_18 : FVec F S_ .f32 := constant S_ .f32 0x7F800000#32
  let main_v50 : FVec F S160000 .f32 := broadcastInDim S160000 ![] bcast_S_S160000 main_cst_18
  fn_part3 (F := F) main_arg12 main_arg13 main_arg14 main_arg15 main_v48 main_v49 main_v50

def fn_part1 {F : FTy → Type} [FloatOps F] (main_arg5 : FVec F S20000 .f32) (main_arg6 : FVec F S1024x1024 .f32) (main_arg7 : FVec F S20000x256 .f32) (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) (main_v13 : IVec S_ 1) (main_v16 : IVec S20000x1024 1) : IVec S_ 1 :=
  let main_c_5 : IVec S_ 1 := constantI S_ 1 1#1
  let main_v17 : IVec S_ 1 := (fun x v => Host.reduce IntOp.andi x v reducesTo_S20000x1024_S_d0_1 h_S_) main_v16 main_c_5
  let main_v18 : IVec S_ 1 := andi main_v13 main_v17
  let main_v19 : FVec F S20000 .f32 := Host.absf main_arg5
  let main_cst_6 : FVec F S_ .f32 := constant S_ .f32 0x7F800000#32
  let main_v20 : FVec F S20000 .f32 := broadcastInDim S20000 ![] bcast_S_S20000 main_cst_6
  let main_v21 : IVec S20000 1 := cmpf .olt main_v19 main_v20
  let main_c_7 : IVec S_ 1 := constantI S_ 1 1#1
  let main_v22 : IVec S_ 1 := (fun x v => Host.reduce IntOp.andi x v reducesTo_S20000_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S20000x256 .f32 := Host.absf main_arg7
  let main_cst_10 : FVec F S_ .f32 := constant S_ .f32 0x7F800000#32
  let main_v30 : FVec F S20000x256 .f32 := broadcastInDim S20000x256 ![] bcast_S_S20000x256 main_cst_10
  let main_v31 : IVec S20000x256 1 := cmpf .olt main_v29 main_v30
  let main_c_11 : IVec S_ 1 := constantI S_ 1 1#1
  let main_v32 : IVec S_ 1 := (fun x v => Host.reduce IntOp.andi x v reducesTo_S20000x256_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S64x8x1024 .f32) (main_arg1 : IVec S64x8 32) (main_arg2 : FVec F S3x1024 .f32) (main_arg3 : FVec F S3 .f32) (main_arg4 : FVec F S20000x1024 .f32) (main_arg5 : FVec F S20000 .f32) (main_arg6 : FVec F S1024x1024 .f32) (main_arg7 : FVec F S20000x256 .f32) (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) : IVec S_ 1 :=
  let main_v0 : FVec F S64x8x1024 .f32 := Host.absf main_arg0
  let main_cst : FVec F S_ .f32 := constant S_ .f32 0x7F800000#32
  let main_v1 : FVec F S64x8x1024 .f32 := broadcastInDim S64x8x1024 ![] bcast_S_S64x8x1024 main_cst
  let main_v2 : IVec S64x8x1024 1 := cmpf .olt main_v0 main_v1
  let main_c : IVec S_ 1 := constantI S_ 1 1#1
  let main_v3 : IVec S_ 1 := (fun x v => Host.reduce IntOp.andi x v reducesTo_S64x8x1024_S_d0_1_2 h_S_) main_v2 main_c
  let main_v4 : FVec F S3x1024 .f32 := Host.absf main_arg2
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S20000x1024 .f32 := Host.absf main_arg4
  let main_cst_4 : FVec F S_ .f32 := constant S_ .f32 0x7F800000#32
  let main_v15 : FVec F S20000x1024 .f32 := broadcastInDim S20000x1024 ![] bcast_S_S20000x1024 main_cst_4
  let main_v16 : IVec S20000x1024 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S512x1024 : Shape := ⟨2, ![512, 1024]⟩
abbrev S1x20000 : Shape := ⟨2, ![1, 20000]⟩
abbrev S1x3 : Shape := ⟨2, ![1, 3]⟩
abbrev S512x20000 : Shape := ⟨2, ![512, 20000]⟩
abbrev S512x3 : Shape := ⟨2, ![512, 3]⟩
abbrev S8x1024 : Shape := ⟨2, ![8, 1024]⟩
abbrev S8x20000 : Shape := ⟨2, ![8, 20000]⟩
abbrev S8x3 : Shape := ⟨2, ![8, 3]⟩
abbrev S8 : Shape := ⟨1, ![8]⟩
abbrev S8x1 : Shape := ⟨2, ![8, 1]⟩
abbrev S512x1 : Shape := ⟨2, ![512, 1]⟩
abbrev S64x1 : Shape := ⟨2, ![64, 1]⟩
abbrev S64x20000 : Shape := ⟨2, ![64, 20000]⟩
abbrev S64x256 : Shape := ⟨2, ![64, 256]⟩
abbrev S64 : Shape := ⟨1, ![64]⟩
abbrev S1x160000 : Shape := ⟨2, ![1, 160000]⟩
abbrev S512x160000 : Shape := ⟨2, ![512, 160000]⟩
abbrev S8x160000 : Shape := ⟨2, ![8, 160000]⟩
abbrev S8x64 : Shape := ⟨2, ![8, 64]⟩
abbrev S1x67735 : Shape := ⟨2, ![1, 67735]⟩
abbrev S512x67735 : Shape := ⟨2, ![512, 67735]⟩
abbrev S32x1024 : Shape := ⟨2, ![32, 1024]⟩
abbrev S32x1 : Shape := ⟨2, ![32, 1]⟩
abbrev S32x67735 : Shape := ⟨2, ![32, 67735]⟩
abbrev S32x16 : Shape := ⟨2, ![32, 16]⟩
abbrev S32 : Shape := ⟨1, ![32]⟩
abbrev S512x267735 : Shape := ⟨2, ![512, 267735]⟩
abbrev S64x8x267735 : Shape := ⟨3, ![64, 8, 267735]⟩
abbrev S64x8x1 : Shape := ⟨3, ![64, 8, 1]⟩
abbrev S_ : Shape := ⟨0, ![]⟩
abbrev S64x8x1x1 : Shape := ⟨4, ![64, 8, 1, 1]⟩
abbrev S1 : Shape := ⟨1, ![1]⟩
abbrev S1x1x1x1 : Shape := ⟨4, ![1, 1, 1, 1]⟩

abbrev nBuf : Space → Nat
  | .hbm => 71
  | .vmem => 38
  | .smem => 0
  | _ => 0

abbrev bufTy : (tb : Table) → Fin (tcTables nBuf tb) → BufTy
  | .hbm, ⟨0, _⟩ => ⟨S64x8x1024, .f32⟩
  | .hbm, ⟨1, _⟩ => ⟨S64x8, .i32⟩
  | .hbm, ⟨2, _⟩ => ⟨S3x1024, .f32⟩
  | .hbm, ⟨3, _⟩ => ⟨S3, .f32⟩
  | .hbm, ⟨4, _⟩ => ⟨S20000x1024, .f32⟩
  | .hbm, ⟨5, _⟩ => ⟨S20000, .f32⟩
  | .hbm, ⟨6, _⟩ => ⟨S1024x1024, .f32⟩
  | .hbm, ⟨7, _⟩ => ⟨S20000x256, .f32⟩
  | .hbm, ⟨8, _⟩ => ⟨S20000, .f32⟩
  | .hbm, ⟨9, _⟩ => ⟨S256x1024, .f32⟩
  | .hbm, ⟨10, _⟩ => ⟨S160000x64, .f32⟩
  | .hbm, ⟨11, _⟩ => ⟨S160000, .f32⟩
  | .hbm, ⟨12, _⟩ => ⟨S64x1024, .f32⟩
  | .hbm, ⟨13, _⟩ => ⟨S67735x16, .f32⟩
  | .hbm, ⟨14, _⟩ => ⟨S67735, .f32⟩
  | .hbm, ⟨15, _⟩ => ⟨S16x1024, .f32⟩
  | .hbm, ⟨16, _⟩ => ⟨S512x1024, .f32⟩
  | .hbm, ⟨17, _⟩ => ⟨S512x1024, .bf16⟩
  | .hbm, ⟨18, _⟩ => ⟨S1024x1024, .bf16⟩
  | .hbm, ⟨19, _⟩ => ⟨S20000x1024, .bf16⟩
  | .hbm, ⟨20, _⟩ => ⟨S1x20000, .f32⟩
  | .hbm, ⟨21, _⟩ => ⟨S3x1024, .bf16⟩
  | .hbm, ⟨22, _⟩ => ⟨S1x3, .f32⟩
  | .hbm, ⟨23, _⟩ => ⟨S512x20000, .f32⟩
  | .hbm, ⟨24, _⟩ => ⟨S512x3, .f32⟩
  | .hbm, ⟨25, _⟩ => ⟨S256x1024, .bf16⟩
  | .hbm, ⟨26, _⟩ => ⟨S20000x256, .bf16⟩
  | .hbm, ⟨27, _⟩ => ⟨S1x20000, .f32⟩
  | .hbm, ⟨28, _⟩ => ⟨S512x1, .f32⟩
  | .hbm, ⟨29, _⟩ => ⟨S512x20000, .f32⟩
  | .hbm, ⟨30, _⟩ => ⟨S64x1024, .bf16⟩
  | .hbm, ⟨31, _⟩ => ⟨S160000x64, .bf16⟩
  | .hbm, ⟨32, _⟩ => ⟨S1x160000, .f32⟩
  | .hbm, ⟨33, _⟩ => ⟨S512x1, .f32⟩
  | .hbm, ⟨34, _⟩ => ⟨S512x160000, .f32⟩
  | .hbm, ⟨35, _⟩ => ⟨S16x1024, .bf16⟩
  | .hbm, ⟨36, _⟩ => ⟨S67735x16, .bf16⟩
  | .hbm, ⟨37, _⟩ => ⟨S1x67735, .f32⟩
  | .hbm, ⟨38, _⟩ => ⟨S512x1, .f32⟩
  | .hbm, ⟨39, _⟩ => ⟨S512x67735, .f32⟩
  | .hbm, ⟨40, _⟩ => ⟨S512x267735, .f32⟩
  | .hbm, ⟨41, _⟩ => ⟨S64x8x267735, .f32⟩
  | .hbm, ⟨42, _⟩ => ⟨S64x8x1, .i32⟩
  | .hbm, ⟨43, _⟩ => ⟨S_, .i32⟩
  | .hbm, ⟨44, _⟩ => ⟨S64x8x1, .i32⟩
  | .hbm, ⟨45, _⟩ => ⟨S64x8x1, .i1⟩
  | .hbm, ⟨46, _⟩ => ⟨S_, .i32⟩
  | .hbm, ⟨47, _⟩ => ⟨S64x8x1, .i32⟩
  | .hbm, ⟨48, _⟩ => ⟨S64x8x1, .i32⟩
  | .hbm, ⟨49, _⟩ => ⟨S64x8x1, .i32⟩
  | .hbm, ⟨50, _⟩ => ⟨S64x8x1x1, .i32⟩
  | .hbm, ⟨51, _⟩ => ⟨S1, .i32⟩
  | .hbm, ⟨52, _⟩ => ⟨S_, .i32⟩
  | .hbm, ⟨53, _⟩ => ⟨S64x8x1x1, .i32⟩
  | .hbm, ⟨54, _⟩ => ⟨S64x8x1x1, .i1⟩
  | .hbm, ⟨55, _⟩ => ⟨S1x1x1x1, .i32⟩
  | .hbm, ⟨56, _⟩ => ⟨S64x8x1x1, .i32⟩
  | .hbm, ⟨57, _⟩ => ⟨S64x8x1x1, .i1⟩
  | .hbm, ⟨58, _⟩ => ⟨S64x8x1x1, .i1⟩
  | .hbm, ⟨59, _⟩ => ⟨S_, .i1⟩
  | .hbm, ⟨60, _⟩ => ⟨S64x8x1, .i1⟩
  | .hbm, ⟨61, _⟩ => ⟨S64x8x1, .f32⟩
  | .hbm, ⟨62, _⟩ => ⟨S_, .f32⟩
  | .hbm, ⟨63, _⟩ => ⟨S64x8x1, .f32⟩
  | .hbm, ⟨64, _⟩ => ⟨S64x8x1, .f32⟩
  | .hbm, ⟨65, _⟩ => ⟨S64x8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S8x1024, .bf16⟩
  | .local _ .vmem, ⟨1, _⟩ => ⟨S8x1024, .bf16⟩
  | .local _ .vmem, ⟨2, _⟩ => ⟨S1024x1024, .bf16⟩
  | .local _ .vmem, ⟨3, _⟩ => ⟨S20000x1024, .bf16⟩
  | .local _ .vmem, ⟨4, _⟩ => ⟨S1x20000, .f32⟩
  | .local _ .vmem, ⟨5, _⟩ => ⟨S3x1024, .bf16⟩
  | .local _ .vmem, ⟨6, _⟩ => ⟨S1x3, .f32⟩
  | .local _ .vmem, ⟨7, _⟩ => ⟨S8x20000, .f32⟩
  | .local _ .vmem, ⟨8, _⟩ => ⟨S8x20000, .f32⟩
  | .local _ .vmem, ⟨9, _⟩ => ⟨S8x3, .f32⟩
  | .local _ .vmem, ⟨10, _⟩ => ⟨S8x3, .f32⟩
  | .local _ .vmem, ⟨11, _⟩ => ⟨S64x1024, .bf16⟩
  | .local _ .vmem, ⟨12, _⟩ => ⟨S64x1024, .bf16⟩
  | .local _ .vmem, ⟨13, _⟩ => ⟨S256x1024, .bf16⟩
  | .local _ .vmem, ⟨14, _⟩ => ⟨S20000x256, .bf16⟩
  | .local _ .vmem, ⟨15, _⟩ => ⟨S1x20000, .f32⟩
  | .local _ .vmem, ⟨16, _⟩ => ⟨S64x1, .f32⟩
  | .local _ .vmem, ⟨17, _⟩ => ⟨S64x1, .f32⟩
  | .local _ .vmem, ⟨18, _⟩ => ⟨S64x20000, .f32⟩
  | .local _ .vmem, ⟨19, _⟩ => ⟨S64x20000, .f32⟩
  | .local _ .vmem, ⟨20, _⟩ => ⟨S8x1024, .bf16⟩
  | .local _ .vmem, ⟨21, _⟩ => ⟨S8x1024, .bf16⟩
  | .local _ .vmem, ⟨22, _⟩ => ⟨S64x1024, .bf16⟩
  | .local _ .vmem, ⟨23, _⟩ => ⟨S160000x64, .bf16⟩
  | .local _ .vmem, ⟨24, _⟩ => ⟨S1x160000, .f32⟩
  | .local _ .vmem, ⟨25, _⟩ => ⟨S8x1, .f32⟩
  | .local _ .vmem, ⟨26, _⟩ => ⟨S8x1, .f32⟩
  | .local _ .vmem, ⟨27, _⟩ => ⟨S8x160000, .f32⟩
  | .local _ .vmem, ⟨28, _⟩ => ⟨S8x160000, .f32⟩
  | .local _ .vmem, ⟨29, _⟩ => ⟨S32x1024, .bf16⟩
  | .local _ .vmem, ⟨30, _⟩ => ⟨S32x1024, .bf16⟩
  | .local _ .vmem, ⟨31, _⟩ => ⟨S16x1024, .bf16⟩
  | .local _ .vmem, ⟨32, _⟩ => ⟨S67735x16, .bf16⟩
  | .local _ .vmem, ⟨33, _⟩ => ⟨S1x67735, .f32⟩
  | .local _ .vmem, ⟨34, _⟩ => ⟨S32x1, .f32⟩
  | .local _ .vmem, ⟨35, _⟩ => ⟨S32x1, .f32⟩
  | .local _ .vmem, ⟨36, _⟩ => ⟨S32x67735, .f32⟩
  | .local _ .vmem, ⟨37, _⟩ => ⟨S32x67735, .f32⟩
  | _, _ => ⟨S64x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v26 : Ref sig .tc := ⟨.hbm, 64, rfl⟩
abbrev main_v27 : Ref sig .tc := ⟨.hbm, 65, rfl⟩
abbrev main_cst : Ref sig .tc := ⟨.hbm, 66, rfl⟩
abbrev main_v28 : Ref sig .tc := ⟨.hbm, 67, rfl⟩
abbrev main_cst_0 : Ref sig .tc := ⟨.hbm, 68, rfl⟩
abbrev main_v29 : Ref sig .tc := ⟨.hbm, 69, rfl⟩
abbrev main_v30 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20000x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x20000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x20000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x20000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S160000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x160000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x160000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S32x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S67735x16 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x67735 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S32x67735 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S64x8x1024_S512x1024 : S64x8x1024.ShapeCasts S512x1024
  bitsLt_bf16_f32 : FTy.bits .bf16 < FTy.bits .f32
  shapeCasts_S20000_S1x20000 : S20000.ShapeCasts S1x20000
  shapeCasts_S3_S1x3 : S3.ShapeCasts S1x3
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S20000x1024_S20000x1024_0_0 : ∀ a, (![0, 0] : Fin 2 → Nat) a + S20000x1024.size a ≤ S20000x1024.size a
  h_S20000x1024 : 0 < S20000x1024.numel
  shapeCasts_S20000x1024_S20000x1024 : S20000x1024.ShapeCasts S20000x1024
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  broadcasts_S1x20000_S8x20000 : S1x20000.Broadcasts S8x20000
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8x3 : S1x3.Broadcasts S8x3
  reduces_S8x20000_S8 : S8x20000.Reduces [1] S8
  shapeCasts_S8_S8x1 : S8.ShapeCasts S8x1
  reduces_S8x3_S8 : S8x3.Reduces [1] S8
  broadcasts_S8x1_S8x20000 : S8x1.Broadcasts S8x20000
  broadcasts_S8x1_S8x3 : S8x1.Broadcasts S8x3
  inb_S8x20000_S8x20000_0_0 : ∀ a, (![0, 0] : Fin 2 → Nat) a + S8x20000.size a ≤ S8x20000.size a
  h_S8x20000 : 0 < S8x20000.numel
  inb_S8x3_S8x3_0_0 : ∀ a, (![0, 0] : Fin 2 → Nat) a + S8x3.size a ≤ S8x3.size a
  h_S8x3 : 0 < S8x3.numel
  slices_S512x3_S512x1_0_0 : S512x3.Slices ![0, 0] S512x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  broadcasts_S1x20000_S64x20000 : S1x20000.Broadcasts S64x20000
  reduces_S64x20000_S64 : S64x20000.Reduces [1] S64
  shapeCasts_S64_S64x1 : S64.ShapeCasts S64x1
  broadcasts_S64x1_S64x20000 : S64x1.Broadcasts S64x20000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x20000_S64x20000_0_0 : ∀ a, (![0, 0] : Fin 2 → Nat) a + S64x20000.size a ≤ S64x20000.size a
  h_S64x20000 : 0 < S64x20000.numel
  shapeCasts_S160000_S1x160000 : S160000.ShapeCasts S1x160000
  slices_S512x3_S512x1_0_1 : S512x3.Slices ![0, 1] S512x1
  inb_S160000x64_S160000x64_0_0 : ∀ a, (![0, 0] : Fin 2 → Nat) a + S160000x64.size a ≤ S160000x64.size a
  h_S160000x64 : 0 < S160000x64.numel
  shapeCasts_S160000x64_S160000x64 : S160000x64.ShapeCasts S160000x64
  inb_S1x160000_S1x160000_0_0 : ∀ a, (![0, 0] : Fin 2 → Nat) a + S1x160000.size a ≤ S1x160000.size a
  h_S1x160000 : 0 < S1x160000.numel
  shapeCasts_S1x160000_S1x160000 : S1x160000.ShapeCasts S1x160000
  broadcasts_S1x160000_S8x160000 : S1x160000.Broadcasts S8x160000
  reduces_S8x160000_S8 : S8x160000.Reduces [1] S8
  broadcasts_S8x1_S8x160000 : S8x1.Broadcasts S8x160000
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x160000_S8x160000_0_0 : ∀ a, (![0, 0] : Fin 2 → Nat) a + S8x160000.size a ≤ S8x160000.size a
  h_S8x160000 : 0 < S8x160000.numel
  shapeCasts_S67735_S1x67735 : S67735.ShapeCasts S1x67735
  slices_S512x3_S512x1_0_2 : S512x3.Slices ![0, 2] S512x1
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S67735x16_S67735x16_0_0 : ∀ a, (![0, 0] : Fin 2 → Nat) a + S67735x16.size a ≤ S67735x16.size a
  h_S67735x16 : 0 < S67735x16.numel
  shapeCasts_S67735x16_S67735x16 : S67735x16.ShapeCasts S67735x16
  inb_S1x67735_S1x67735_0_0 : ∀ a, (![0, 0] : Fin 2 → Nat) a + S1x67735.size a ≤ S1x67735.size a
  h_S1x67735 : 0 < S1x67735.numel
  shapeCasts_S1x67735_S1x67735 : S1x67735.ShapeCasts S1x67735
  broadcasts_S1x67735_S32x67735 : S1x67735.Broadcasts S32x67735
  reduces_S32x67735_S32 : S32x67735.Reduces [1] S32
  shapeCasts_S32_S32x1 : S32.ShapeCasts S32x1
  broadcasts_S32x1_S32x67735 : S32x1.Broadcasts S32x67735
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x67735_S32x67735_0_0 : ∀ a, (![0, 0] : Fin 2 → Nat) a + S32x67735.size a ≤ S32x67735.size a
  h_S32x67735 : 0 < S32x67735.numel
  concatenates_S512x20000_S512x20000_S512x160000_S512x67735_S512x267735_d1 : Shape.Concatenates [S512x20000, S512x20000, S512x160000, S512x67735] S512x267735 1
  shapeCasts_S512x267735_S64x8x267735 : S512x267735.ShapeCasts S64x8x267735
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  shapeCasts_S64x8x1_S64x8x1x1 : S64x8x1.ShapeCasts S64x8x1x1
  bcast_S_S64x8x1x1 : S_.BroadcastsInDim S64x8x1x1 (![] : Fin 0 → Fin S64x8x1x1.rank)
  bcast_S1_S1x1x1x1_3 : S1.BroadcastsInDim S1x1x1x1 (![3] : Fin 1 → Fin S1x1x1x1.rank)
  bcast_S1x1x1x1_S64x8x1x1_0_1_2_3 : S1x1x1x1.BroadcastsInDim S64x8x1x1 (![0, 1, 2, 3] : Fin 4 → Fin S64x8x1x1.rank)
  reducesTo_S64x8x1x1_S64x8x1_d3 : S64x8x1x1.ReducesTo [3] S64x8x1
  h_S_ : 0 < S_.numel
  shapeCasts_S64x8x1_S64x8 : S64x8x1.ShapeCasts S64x8
  reducesTo_S64x8_S_d0_1 : S64x8.ReducesTo [0, 1] S_
  dot_S8x1024_S1024x1024_S8x1024_1_1_0_0_n_n_wf : DotDims.WF S8x1024 S1024x1024 S8x1024 [1] [1] [0] [0] [] []
  dot_S8x1024_S20000x1024_S8x20000_1_1_0_0_n_n_wf : DotDims.WF S8x1024 S20000x1024 S8x20000 [1] [1] [0] [0] [] []
  dot_S8x1024_S3x1024_S8x3_1_1_0_0_n_n_wf : DotDims.WF S8x1024 S3x1024 S8x3 [1] [1] [0] [0] [] []
  dot_S64x1024_S256x1024_S64x256_1_1_0_0_n_n_wf : DotDims.WF S64x1024 S256x1024 S64x256 [1] [1] [0] [0] [] []
  dot_S64x256_S20000x256_S64x20000_1_1_0_0_n_n_wf : DotDims.WF S64x256 S20000x256 S64x20000 [1] [1] [0] [0] [] []
  dot_S8x1024_S64x1024_S8x64_1_1_0_0_n_n_wf : DotDims.WF S8x1024 S64x1024 S8x64 [1] [1] [0] [0] [] []
  dot_S8x64_S160000x64_S8x160000_1_1_0_0_n_n_wf : DotDims.WF S8x64 S160000x64 S8x160000 [1] [1] [0] [0] [] []
  dot_S32x1024_S16x1024_S32x16_1_1_0_0_n_n_wf : DotDims.WF S32x1024 S16x1024 S32x16 [1] [1] [0] [0] [] []
  dot_S32x16_S67735x16_S32x67735_1_1_0_0_n_n_wf : DotDims.WF S32x16 S67735x16 S32x67735 [1] [1] [0] [0] [] []
  gather_S64x8x267735_S64x8x1x1_S64x8x1_n_2_01_01_2_3_111_wf : GatherDims.WF S64x8x267735 S64x8x1x1 S64x8x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S512x1024.size a
  hwx0_0 : ∀ i : grid0.Coords, EltTy.bits .bf16 = 32 ∨ (Rect.block (s := S512x1024) S8x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20000x1024.size a ≤ S20000x1024.size a
  hwx0_2 : ∀ i : grid0.Coords, EltTy.bits .bf16 = 32 ∨ (Rect.block (s := S20000x1024) S20000x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20000.size a ≤ S1x20000.size a
  hwx0_3 : ∀ i : grid0.Coords, EltTy.bits .f32 = 32 ∨ (Rect.block (s := S1x20000) S1x20000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .bf16 = 32 ∨ (Rect.block (s := S3x1024) S3x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x20000.size a ≤ S512x20000.size a
  hwx0_6 : ∀ i : grid0.Coords, EltTy.bits .f32 = 32 ∨ (Rect.block (s := S512x20000) S8x20000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x3.size a ≤ S512x3.size a
  hwx0_7 : ∀ i : grid0.Coords, EltTy.bits .f32 = 32 ∨ (Rect.block (s := S512x3) S8x3.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S512x1024.size a
  hwx1_0 : ∀ i : grid1.Coords, EltTy.bits .bf16 = 32 ∨ (Rect.block (s := S512x1024) S64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20000x256.size a ≤ S20000x256.size a
  hwx1_2 : ∀ i : grid1.Coords, EltTy.bits .bf16 = 32 ∨ (Rect.block (s := S20000x256) S20000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20000.size a ≤ S1x20000.size a
  hwx1_3 : ∀ i : grid1.Coords, EltTy.bits .f32 = 32 ∨ (Rect.block (s := S1x20000) S1x20000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S512x1.size a
  hwx1_4 : ∀ i : grid1.Coords, EltTy.bits .f32 = 32 ∨ (Rect.block (s := S512x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x20000.size a ≤ S512x20000.size a
  hwx1_5 : ∀ i : grid1.Coords, EltTy.bits .f32 = 32 ∨ (Rect.block (s := S512x20000) S64x20000.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1024.size a ≤ S512x1024.size a
  hwx2_0 : ∀ i : grid2.Coords, EltTy.bits .bf16 = 32 ∨ (Rect.block (s := S512x1024) S8x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x1024.size a
  hwx2_1 : ∀ i : grid2.Coords, EltTy.bits .bf16 = 32 ∨ (Rect.block (s := S64x1024) S64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S160000x64.size a ≤ S160000x64.size a
  hwx2_2 : ∀ i : grid2.Coords, EltTy.bits .bf16 = 32 ∨ (Rect.block (s := S160000x64) S160000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x160000.size a ≤ S1x160000.size a
  hwx2_3 : ∀ i : grid2.Coords, EltTy.bits .f32 = 32 ∨ (Rect.block (s := S1x160000) S1x160000.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x1.size a ≤ S512x1.size a
  hwx2_4 : ∀ i : grid2.Coords, EltTy.bits .f32 = 32 ∨ (Rect.block (s := S512x1) S8x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x160000.size a ≤ S512x160000.size a
  hwx2_5 : ∀ i : grid2.Coords, EltTy.bits .f32 = 32 ∨ (Rect.block (s := S512x160000) S8x160000.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x1024.size a ≤ S512x1024.size a
  hwx3_0 : ∀ i : grid3.Coords, EltTy.bits .bf16 = 32 ∨ (Rect.block (s := S512x1024) S32x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1024.size a ≤ S16x1024.size a
  hwx3_1 : ∀ i : grid3.Coords, EltTy.bits .bf16 = 32 ∨ (Rect.block (s := S16x1024) S16x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S67735x16.size a ≤ S67735x16.size a
  hwx3_2 : ∀ i : grid3.Coords, EltTy.bits .bf16 = 32 ∨ (Rect.block (s := S67735x16) S67735x16.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x67735.size a ≤ S1x67735.size a
  hwx3_3 : ∀ i : grid3.Coords, EltTy.bits .f32 = 32 ∨ (Rect.block (s := S1x67735) S1x67735.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S512x1.size a
  hwx3_4 : ∀ i : grid3.Coords, EltTy.bits .f32 = 32 ∨ (Rect.block (s := S512x1) S32x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S32x67735.size a ≤ S512x67735.size a
  hwx3_5 : ∀ i : grid3.Coords, EltTy.bits .f32 = 32 ∨ (Rect.block (s := S512x67735) S32x67735.size (cc3_transform_5 i) (hinb3_5 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf
def dot_S8x1024_S20000x1024_S8x20000_1_1_0_0_n_n : DotDims S8x1024 S20000x1024 S8x20000 where
  lhsContracting := [1]
  rhsContracting := [1]
  lhsNonContracting := [0]
  rhsNonContracting := [0]
  lhsBatch := []
  rhsBatch := []
  wf := dot_S8x1024_S20000x1024_S8x20000_1_1_0_0_n_n_wf
def dot_S8x1024_S3x1024_S8x3_1_1_0_0_n_n : DotDims S8x1024 S3x1024 S8x3 where
  lhsContracting := [1]
  rhsContracting := [1]
  lhsNonContracting := [0]
  rhsNonContracting := [0]
  lhsBatch := []
  rhsBatch := []
  wf := dot_S8x1024_S3x1024_S8x3_1_1_0_0_n_n_wf
def dot_S64x1024_S256x1024_S64x256_1_1_0_0_n_n : DotDims S64x1024 S256x1024 S64x256 where
  lhsContracting := [1]
  rhsContracting := [1]
  lhsNonContracting := [0]
  rhsNonContracting := [0]
  lhsBatch := []
  rhsBatch := []
  wf := dot_S64x1024_S256x1024_S64x256_1_1_0_0_n_n_wf
def dot_S64x256_S20000x256_S64x20000_1_1_0_0_n_n : DotDims S64x256 S20000x256 S64x20000 where
  lhsContracting := [1]
  rhsContracting := [1]
  lhsNonContracting := [0]
  rhsNonContracting := [0]
  lhsBatch := []
  rhsBatch := []
  wf := dot_S64x256_S20000x256_S64x20000_1_1_0_0_n_n_wf
def dot_S8x1024_S64x1024_S8x64_1_1_0_0_n_n : DotDims S8x1024 S64x1024 S8x64 where
  lhsContracting := [1]
  rhsContracting := [1]
  lhsNonContracting := [0]
  rhsNonContracting := [0]
  lhsBatch := []
  rhsBatch := []
  wf := dot_S8x1024_S64x1024_S8x64_1_1_0_0_n_n_wf
def dot_S8x64_S160000x64_S8x160000_1_1_0_0_n_n : DotDims S8x64 S160000x64 S8x160000 where
  lhsContracting := [1]
  rhsContracting := [1]
  lhsNonContracting := [0]
  rhsNonContracting := [0]
  lhsBatch := []
  rhsBatch := []
  wf := dot_S8x64_S160000x64_S8x160000_1_1_0_0_n_n_wf
def dot_S32x1024_S16x1024_S32x16_1_1_0_0_n_n : DotDims S32x1024 S16x1024 S32x16 where
  lhsContracting := [1]
  rhsContracting := [1]
  lhsNonContracting := [0]
  rhsNonContracting := [0]
  lhsBatch := []
  rhsBatch := []
  wf := dot_S32x1024_S16x1024_S32x16_1_1_0_0_n_n_wf
def dot_S32x16_S67735x16_S32x67735_1_1_0_0_n_n : DotDims S32x16 S67735x16 S32x67735 where
  lhsContracting := [1]
  rhsContracting := [1]
  lhsNonContracting := [0]
  rhsNonContracting := [0]
  lhsBatch := []
  rhsBatch := []
  wf := dot_S32x16_S67735x16_S32x67735_1_1_0_0_n_n_wf
def gather_S64x8x267735_S64x8x1x1_S64x8x1_n_2_01_01_2_3_111 : GatherDims S64x8x267735 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x267735_S64x8x1x1_S64x8x1_n_2_01_01_2_3_111_wf

abbrev win0_0 : Pipeline.Window sig grid0 :=
  Pipeline.Window.ofSpec (Memref.whole main_v1) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S20000x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x20000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S8x20000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S8x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S20000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x20000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S64x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S64x20000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S8x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S64x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S160000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x160000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S8x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17) S8x160000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v1) S32x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S16x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S67735x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x67735.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S32x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v22) S32x67735.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S20003x1024 : Shape := ⟨2, ![20003, 1024]⟩
abbrev S20003 : Shape := ⟨1, ![20003]⟩
abbrev S64x8x20003 : Shape := ⟨3, ![64, 8, 20003]⟩
abbrev S1x1x20003 : Shape := ⟨3, ![1, 1, 20003]⟩
abbrev S_ : Shape := ⟨0, ![]⟩
abbrev S64x8x1 : Shape := ⟨3, ![64, 8, 1]⟩
abbrev S64x8x20000 : Shape := ⟨3, ![64, 8, 20000]⟩
abbrev S64x8x256 : Shape := ⟨3, ![64, 8, 256]⟩
abbrev S1x1x20000 : Shape := ⟨3, ![1, 1, 20000]⟩
abbrev S64x8x64 : Shape := ⟨3, ![64, 8, 64]⟩
abbrev S64x8x160000 : Shape := ⟨3, ![64, 8, 160000]⟩
abbrev S1x1x160000 : Shape := ⟨3, ![1, 1, 160000]⟩
abbrev S64x8x16 : Shape := ⟨3, ![64, 8, 16]⟩
abbrev S64x8x67735 : Shape := ⟨3, ![64, 8, 67735]⟩
abbrev S1x1x67735 : Shape := ⟨3, ![1, 1, 67735]⟩
abbrev S64x8x267735 : Shape := ⟨3, ![64, 8, 267735]⟩
abbrev S64x8x1x1 : Shape := ⟨4, ![64, 8, 1, 1]⟩
abbrev S1 : Shape := ⟨1, ![1]⟩
abbrev S1x1x1x1 : Shape := ⟨4, ![1, 1, 1, 1]⟩

abbrev nBuf : Space → Nat
  | .hbm => 144
  | .vmem => 0
  | .smem => 0
  | _ => 0

abbrev hbmTy0_0 (i : Nat) : BufTy := match i % 128 with
  | 0 => ⟨S64x8x1024, .f32⟩
  | 1 => ⟨S64x8, .i32⟩
  | 2 => ⟨S3x1024, .f32⟩
  | 3 => ⟨S3, .f32⟩
  | 4 => ⟨S20000x1024, .f32⟩
  | 5 => ⟨S20000, .f32⟩
  | 6 => ⟨S1024x1024, .f32⟩
  | 7 => ⟨S20000x256, .f32⟩
  | 8 => ⟨S20000, .f32⟩
  | 9 => ⟨S256x1024, .f32⟩
  | 10 => ⟨S160000x64, .f32⟩
  | 11 => ⟨S160000, .f32⟩
  | 12 => ⟨S64x1024, .f32⟩
  | 13 => ⟨S67735x16, .f32⟩
  | 14 => ⟨S67735, .f32⟩
  | 15 => ⟨S16x1024, .f32⟩
  | 16 => ⟨S20003x1024, .f32⟩
  | 17 => ⟨S20003, .f32⟩
  | 18 => ⟨S64x8x1024, .f32⟩
  | 19 => ⟨S64x8x20003, .f32⟩
  | 20 => ⟨S1x1x20003, .f32⟩
  | 21 => ⟨S64x8x20003, .f32⟩
  | 22 => ⟨S64x8x20003, .f32⟩
  | 23 => ⟨S_, .f32⟩
  | 24 => ⟨S64x8, .f32⟩
  | 25 => ⟨S_, .f32⟩
  | 26 => ⟨S64x8, .f32⟩
  | 27 => ⟨S64x8, .f32⟩
  | 28 => ⟨S64x8x1, .f32⟩
  | 29 => ⟨S64x8x20003, .f32⟩
  | 30 => ⟨S64x8x20003, .f32⟩
  | 31 => ⟨S64x8x20003, .f32⟩
  | 32 => ⟨S_, .f32⟩
  | 33 => ⟨S64x8, .f32⟩
  | 34 => ⟨S64x8x1, .f32⟩
  | 35 => ⟨S64x8x1, .f32⟩
  | 36 => ⟨S64x8x20003, .f32⟩
  | 37 => ⟨S64x8x20003, .f32⟩
  | 38 => ⟨S64x8x20000, .f32⟩
  | 39 => ⟨S64x8x256, .f32⟩
  | 40 => ⟨S64x8x20000, .f32⟩
  | 41 => ⟨S1x1x20000, .f32⟩
  | 42 => ⟨S64x8x20000, .f32⟩
  | 43 => ⟨S64x8x20000, .f32⟩
  | 44 => ⟨S_, .f32⟩
  | 45 => ⟨S64x8, .f32⟩
  | 46 => ⟨S_, .f32⟩
  | 47 => ⟨S64x8, .f32⟩
  | 48 => ⟨S64x8, .f32⟩
  | 49 => ⟨S64x8x1, .f32⟩
  | 50 => ⟨S64x8x20000, .f32⟩
  | 51 => ⟨S64x8x20000, .f32⟩
  | 52 => ⟨S64x8x20000, .f32⟩
  | 53 => ⟨S_, .f32⟩
  | 54 => ⟨S64x8, .f32⟩
  | 55 => ⟨S64x8x1, .f32⟩
  | 56 => ⟨S64x8x1, .f32⟩
  | 57 => ⟨S64x8x20000, .f32⟩
  | 58 => ⟨S64x8x20000, .f32⟩
  | 59 => ⟨S64x8x1, .f32⟩
  | 60 => ⟨S64x8, .f32⟩
  | 61 => ⟨S64x8x1, .f32⟩
  | 62 => ⟨S64x8x20000, .f32⟩
  | 63 => ⟨S64x8x20000, .f32⟩
  | 64 => ⟨S64x8x64, .f32⟩
  | 65 => ⟨S64x8x160000, .f32⟩
  | 66 => ⟨S1x1x160000, .f32⟩
  | 67 => ⟨S64x8x160000, .f32⟩
  | 68 => ⟨S64x8x160000, .f32⟩
  | 69 => ⟨S_, .f32⟩
  | 70 => ⟨S64x8, .f32⟩
  | 71 => ⟨S_, .f32⟩
  | 72 => ⟨S64x8, .f32⟩
  | 73 => ⟨S64x8, .f32⟩
  | 74 => ⟨S64x8x1, .f32⟩
  | 75 => ⟨S64x8x160000, .f32⟩
  | 76 => ⟨S64x8x160000, .f32⟩
  | 77 => ⟨S64x8x160000, .f32⟩
  | 78 => ⟨S_, .f32⟩
  | 79 => ⟨S64x8, .f32⟩
  | 80 => ⟨S64x8x1, .f32⟩
  | 81 => ⟨S64x8x1, .f32⟩
  | 82 => ⟨S64x8x160000, .f32⟩
  | 83 => ⟨S64x8x160000, .f32⟩
  | 84 => ⟨S64x8x1, .f32⟩
  | 85 => ⟨S64x8, .f32⟩
  | 86 => ⟨S64x8x1, .f32⟩
  | 87 => ⟨S64x8x160000, .f32⟩
  | 88 => ⟨S64x8x160000, .f32⟩
  | 89 => ⟨S64x8x16, .f32⟩
  | 90 => ⟨S64x8x67735, .f32⟩
  | 91 => ⟨S1x1x67735, .f32⟩
  | 92 => ⟨S64x8x67735, .f32⟩
  | 93 => ⟨S64x8x67735, .f32⟩
  | 94 => ⟨S_, .f32⟩
  | 95 => ⟨S64x8, .f32⟩
  | 96 => ⟨S_, .f32⟩
  | 97 => ⟨S64x8, .f32⟩
  | 98 => ⟨S64x8, .f32⟩
  | 99 => ⟨S64x8x1, .f32⟩
  | 100 => ⟨S64x8x67735, .f32⟩
  | 101 => ⟨S64x8x67735, .f32⟩
  | 102 => ⟨S64x8x67735, .f32⟩
  | 103 => ⟨S_, .f32⟩
  | 104 => ⟨S64x8, .f32⟩
  | 105 => ⟨S64x8x1, .f32⟩
  | 106 => ⟨S64x8x1, .f32⟩
  | 107 => ⟨S64x8x67735, .f32⟩
  | 108 => ⟨S64x8x67735, .f32⟩
  | 109 => ⟨S64x8x1, .f32⟩
  | 110 => ⟨S64x8, .f32⟩
  | 111 => ⟨S64x8x1, .f32⟩
  | 112 => ⟨S64x8x67735, .f32⟩
  | 113 => ⟨S64x8x67735, .f32⟩
  | 114 => ⟨S64x8x267735, .f32⟩
  | 115 => ⟨S64x8x1, .i32⟩
  | 116 => ⟨S_, .i32⟩
  | 117 => ⟨S64x8x1, .i32⟩
  | 118 => ⟨S64x8x1, .i1⟩
  | 119 => ⟨S_, .i32⟩
  | 120 => ⟨S64x8x1, .i32⟩
  | 121 => ⟨S64x8x1, .i32⟩
  | 122 => ⟨S64x8x1, .i32⟩
  | 123 => ⟨S64x8x1x1, .i32⟩
  | 124 => ⟨S1, .i32⟩
  | 125 => ⟨S_, .i32⟩
  | 126 => ⟨S64x8x1x1, .i32⟩
  | 127 => ⟨S64x8x1x1, .i1⟩
  | _ => ⟨S64x8x1024, .f32⟩

abbrev hbmTy0_1 (i : Nat) : BufTy := match i % 128 with
  | 0 => ⟨S1x1x1x1, .i32⟩
  | 1 => ⟨S64x8x1x1, .i32⟩
  | 2 => ⟨S64x8x1x1, .i1⟩
  | 3 => ⟨S64x8x1x1, .i1⟩
  | 4 => ⟨S_, .i1⟩
  | 5 => ⟨S64x8x1, .i1⟩
  | 6 => ⟨S64x8x1, .f32⟩
  | 7 => ⟨S_, .f32⟩
  | 8 => ⟨S64x8x1, .f32⟩
  | 9 => ⟨S64x8x1, .f32⟩
  | 10 => ⟨S64x8, .f32⟩
  | 11 => ⟨S_, .f32⟩
  | 12 => ⟨S_, .f32⟩
  | 13 => ⟨S_, .f32⟩
  | 14 => ⟨S_, .f32⟩
  | 15 => ⟨S_, .f32⟩
  | _ => ⟨S64x8x1024, .f32⟩

abbrev hbmTy (i : Nat) : BufTy := match i / 128 with
  | 0 => hbmTy0_0 i
  | 1 => hbmTy0_1 i
  | _ => ⟨S64x8x1024, .f32⟩

abbrev bufTy : (tb : Table) → Fin (tcTables nBuf tb) → BufTy
  | .hbm, ⟨i, _⟩ => hbmTy i
  | _, _ => ⟨S64x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_call3_cst : Ref sig .tc := ⟨.hbm, 94, rfl⟩
abbrev main_call3_v0 : Ref sig .tc := ⟨.hbm, 95, rfl⟩
abbrev main_call3_cst_0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_cst_1 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_cst : Ref sig .tc := ⟨.hbm, 135, rfl⟩
abbrev main_call4_v14 : Ref sig .tc := ⟨.hbm, 136, rfl⟩
abbrev main_v44 : Ref sig .tc := ⟨.hbm, 137, rfl⟩
abbrev main_v45 : Ref sig .tc := ⟨.hbm, 138, rfl⟩
abbrev main_cst : Ref sig .tc := ⟨.hbm, 139, rfl⟩
abbrev main_v46 : Ref sig .tc := ⟨.hbm, 140, rfl⟩
abbrev main_cst_0 : Ref sig .tc := ⟨.hbm, 141, rfl⟩
abbrev main_v47 : Ref sig .tc := ⟨.hbm, 142, rfl⟩
abbrev main_v48 : Ref sig .tc := ⟨.hbm, 143, rfl⟩

abbrev nD : Nat := 1
abbrev τ : Topo := Topo.v7x

variable {F : FTy → Type} [FloatOps F]

class Facts₀ : Prop where
  concatenates_S20000x1024_S3x1024_S20003x1024_d0 : Shape.Concatenates [S20000x1024, S3x1024] S20003x1024 0
  concatenates_S20000_S3_S20003_d0 : Shape.Concatenates [S20000, S3] S20003 0
  bcast_S20003_S1x1x20003_2 : S20003.BroadcastsInDim S1x1x20003 (![2] : Fin 1 → Fin S1x1x20003.rank)
  bcast_S1x1x20003_S64x8x20003_0_1_2 : S1x1x20003.BroadcastsInDim S64x8x20003 (![0, 1, 2] : Fin 3 → Fin S64x8x20003.rank)
  reducesTo_S64x8x20003_S64x8_d2 : S64x8x20003.ReducesTo [2] S64x8
  h_S_ : 0 < S_.numel
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x20003_0_1_2 : S64x8x1.BroadcastsInDim S64x8x20003 (![0, 1, 2] : Fin 3 → Fin S64x8x20003.rank)
  slices_S64x8x20003_S64x8x20000_0_0_0 : S64x8x20003.Slices ![0, 0, 0] S64x8x20000
  bcast_S20000_S1x1x20000_2 : S20000.BroadcastsInDim S1x1x20000 (![2] : Fin 1 → Fin S1x1x20000.rank)
  bcast_S1x1x20000_S64x8x20000_0_1_2 : S1x1x20000.BroadcastsInDim S64x8x20000 (![0, 1, 2] : Fin 3 → Fin S64x8x20000.rank)
  reducesTo_S64x8x20000_S64x8_d2 : S64x8x20000.ReducesTo [2] S64x8
  bcast_S64x8x1_S64x8x20000_0_1_2 : S64x8x1.BroadcastsInDim S64x8x20000 (![0, 1, 2] : Fin 3 → Fin S64x8x20000.rank)
  slices_S64x8x20003_S64x8x1_0_0_20000 : S64x8x20003.Slices ![0, 0, 20000] S64x8x1
  shapeCasts_S64x8x1_S64x8 : S64x8x1.ShapeCasts S64x8
  bcast_S160000_S1x1x160000_2 : S160000.BroadcastsInDim S1x1x160000 (![2] : Fin 1 → Fin S1x1x160000.rank)
  bcast_S1x1x160000_S64x8x160000_0_1_2 : S1x1x160000.BroadcastsInDim S64x8x160000 (![0, 1, 2] : Fin 3 → Fin S64x8x160000.rank)
  reducesTo_S64x8x160000_S64x8_d2 : S64x8x160000.ReducesTo [2] S64x8
  bcast_S64x8x1_S64x8x160000_0_1_2 : S64x8x1.BroadcastsInDim S64x8x160000 (![0, 1, 2] : Fin 3 → Fin S64x8x160000.rank)
  slices_S64x8x20003_S64x8x1_0_0_20001 : S64x8x20003.Slices ![0, 0, 20001] S64x8x1
  bcast_S67735_S1x1x67735_2 : S67735.BroadcastsInDim S1x1x67735 (![2] : Fin 1 → Fin S1x1x67735.rank)
  bcast_S1x1x67735_S64x8x67735_0_1_2 : S1x1x67735.BroadcastsInDim S64x8x67735 (![0, 1, 2] : Fin 3 → Fin S64x8x67735.rank)
  reducesTo_S64x8x67735_S64x8_d2 : S64x8x67735.ReducesTo [2] S64x8
  bcast_S64x8x1_S64x8x67735_0_1_2 : S64x8x1.BroadcastsInDim S64x8x67735 (![0, 1, 2] : Fin 3 → Fin S64x8x67735.rank)
  slices_S64x8x20003_S64x8x1_0_0_20002 : S64x8x20003.Slices ![0, 0, 20002] S64x8x1
  concatenates_S64x8x20000_S64x8x20000_S64x8x160000_S64x8x67735_S64x8x267735_d2 : Shape.Concatenates [S64x8x20000, S64x8x20000, S64x8x160000, S64x8x67735] S64x8x267735 2
  bcast_S_S64x8x1 : S_.BroadcastsInDim S64x8x1 (![] : Fin 0 → Fin S64x8x1.rank)
  shapeCasts_S64x8x1_S64x8x1x1 : S64x8x1.ShapeCasts S64x8x1x1
  bcast_S_S64x8x1x1 : S_.BroadcastsInDim S64x8x1x1 (![] : Fin 0 → Fin S64x8x1x1.rank)
  bcast_S1_S1x1x1x1_3 : S1.BroadcastsInDim S1x1x1x1 (![3] : Fin 1 → Fin S1x1x1x1.rank)
  bcast_S1x1x1x1_S64x8x1x1_0_1_2_3 : S1x1x1x1.BroadcastsInDim S64x8x1x1 (![0, 1, 2, 3] : Fin 4 → Fin S64x8x1x1.rank)
  reducesTo_S64x8x1x1_S64x8x1_d3 : S64x8x1x1.ReducesTo [3] S64x8x1
  reducesTo_S64x8_S_d0_1 : S64x8.ReducesTo [0, 1] S_
  dot_S64x8x1024_S1024x1024_S64x8x1024_2_1_01_0_n_n_wf : DotDims.WF S64x8x1024 S1024x1024 S64x8x1024 [2] [1] [0, 1] [0] [] []
  dot_S64x8x1024_S20003x1024_S64x8x20003_2_1_01_0_n_n_wf : DotDims.WF S64x8x1024 S20003x1024 S64x8x20003 [2] [1] [0, 1] [0] [] []
  dot_S64x8x1024_S256x1024_S64x8x256_2_1_01_0_n_n_wf : DotDims.WF S64x8x1024 S256x1024 S64x8x256 [2] [1] [0, 1] [0] [] []
  dot_S64x8x256_S20000x256_S64x8x20000_2_1_01_0_n_n_wf : DotDims.WF S64x8x256 S20000x256 S64x8x20000 [2] [1] [0, 1] [0] [] []
  dot_S64x8x1024_S64x1024_S64x8x64_2_1_01_0_n_n_wf : DotDims.WF S64x8x1024 S64x1024 S64x8x64 [2] [1] [0, 1] [0] [] []
  dot_S64x8x64_S160000x64_S64x8x160000_2_1_01_0_n_n_wf : DotDims.WF S64x8x64 S160000x64 S64x8x160000 [2] [1] [0, 1] [0] [] []
  dot_S64x8x1024_S16x1024_S64x8x16_2_1_01_0_n_n_wf : DotDims.WF S64x8x1024 S16x1024 S64x8x16 [2] [1] [0, 1] [0] [] []
  dot_S64x8x16_S67735x16_S64x8x67735_2_1_01_0_n_n_wf : DotDims.WF S64x8x16 S67735x16 S64x8x67735 [2] [1] [0, 1] [0] [] []
  gather_S64x8x267735_S64x8x1x1_S64x8x1_n_2_01_01_2_3_111_wf : GatherDims.WF S64x8x267735 S64x8x1x1 S64x8x1 [] [2] [0, 1] [2] [0, 1] 3 ![1, 1, 1]

variable [Facts₀]

def dot_S64x8x1024_S1024x1024_S64x8x1024_2_1_01_0_n_n : DotDims S64x8x1024 S1024x1024 S64x8x1024 where
  lhsContracting := [2]
  rhsContracting := [1]
  lhsNonContracting := [0, 1]
  rhsNonContracting := [0]
  lhsBatch := []
  rhsBatch := []
  wf := dot_S64x8x1024_S1024x1024_S64x8x1024_2_1_01_0_n_n_wf
def dot_S64x8x1024_S20003x1024_S64x8x20003_2_1_01_0_n_n : DotDims S64x8x1024 S20003x1024 S64x8x20003 where
  lhsContracting := [2]
  rhsContracting := [1]
  lhsNonContracting := [0, 1]
  rhsNonContracting := [0]
  lhsBatch := []
  rhsBatch := []
  wf := dot_S64x8x1024_S20003x1024_S64x8x20003_2_1_01_0_n_n_wf
def dot_S64x8x1024_S256x1024_S64x8x256_2_1_01_0_n_n : DotDims S64x8x1024 S256x1024 S64x8x256 where
  lhsContracting := [2]
  rhsContracting := [1]
  lhsNonContracting := [0, 1]
  rhsNonContracting := [0]
  lhsBatch := []
  rhsBatch := []
  wf := dot_S64x8x1024_S256x1024_S64x8x256_2_1_01_0_n_n_wf
def dot_S64x8x256_S20000x256_S64x8x20000_2_1_01_0_n_n : DotDims S64x8x256 S20000x256 S64x8x20000 where
  lhsContracting := [2]
  rhsContracting := [1]
  lhsNonContracting := [0, 1]
  rhsNonContracting := [0]
  lhsBatch := []
  rhsBatch := []
  wf := dot_S64x8x256_S20000x256_S64x8x20000_2_1_01_0_n_n_wf
def dot_S64x8x1024_S64x1024_S64x8x64_2_1_01_0_n_n : DotDims S64x8x1024 S64x1024 S64x8x64 where
  lhsContracting := [2]
  rhsContracting := [1]
  lhsNonContracting := [0, 1]
  rhsNonContracting := [0]
  lhsBatch := []
  rhsBatch := []
  wf := dot_S64x8x1024_S64x1024_S64x8x64_2_1_01_0_n_n_wf
def dot_S64x8x64_S160000x64_S64x8x160000_2_1_01_0_n_n : DotDims S64x8x64 S160000x64 S64x8x160000 where
  lhsContracting := [2]
  rhsContracting := [1]
  lhsNonContracting := [0, 1]
  rhsNonContracting := [0]
  lhsBatch := []
  rhsBatch := []
  wf := dot_S64x8x64_S160000x64_S64x8x160000_2_1_01_0_n_n_wf
def dot_S64x8x1024_S16x1024_S64x8x16_2_1_01_0_n_n : DotDims S64x8x1024 S16x1024 S64x8x16 where
  lhsContracting := [2]
  rhsContracting := [1]
  lhsNonContracting := [0, 1]
  rhsNonContracting := [0]
  lhsBatch := []
  rhsBatch := []
  wf := dot_S64x8x1024_S16x1024_S64x8x16_2_1_01_0_n_n_wf
def dot_S64x8x16_S67735x16_S64x8x67735_2_1_01_0_n_n : DotDims S64x8x16 S67735x16 S64x8x67735 where
  lhsContracting := [2]
  rhsContracting := [1]
  lhsNonContracting := [0, 1]
  rhsNonContracting := [0]
  lhsBatch := []
  rhsBatch := []
  wf := dot_S64x8x16_S67735x16_S64x8x67735_2_1_01_0_n_n_wf
def gather_S64x8x267735_S64x8x1x1_S64x8x1_n_2_01_01_2_3_111 : GatherDims S64x8x267735 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x267735_S64x8x1x1_S64x8x1_n_2_01_01_2_3_111_wf

class Facts : Prop extends Facts₀ where

variable [Facts]
-- ==== Proof.K.Head.lean ====
import proofs.«411270_j76149770158357_2_alg».proof.Proof.Gen.Kernel.Launch
import proofs.«411270_j76149770158357_2_alg».proof.Proof.Gen.Kernel.Skeleton
import proofs.«411270_j76149770158357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8x1024 := Rect.unit (s := S8x1024) ![0, 0] S8x1024.size inb_S8x1024_S8x1024_0_0
abbrev r0_1 : Rect S1024x1024 := Rect.unit (s := S1024x1024) ![0, 0] S1024x1024.size inb_S1024x1024_S1024x1024_0_0
abbrev r0_2 : Rect S20000x1024 := Rect.unit (s := S20000x1024) ![0, 0] S20000x1024.size inb_S20000x1024_S20000x1024_0_0
abbrev r0_3 : Rect S1x20000 := Rect.unit (s := S1x20000) ![0, 0] S1x20000.size inb_S1x20000_S1x20000_0_0
abbrev r0_4 : Rect S3x1024 := Rect.unit (s := S3x1024) ![0, 0] S3x1024.size inb_S3x1024_S3x1024_0_0
abbrev r0_5 : Rect S1x3 := Rect.unit (s := S1x3) ![0, 0] S1x3.size inb_S1x3_S1x3_0_0
abbrev r0_6 : Rect S8x20000 := Rect.unit (s := S8x20000) ![0, 0] S8x20000.size inb_S8x20000_S8x20000_0_0
abbrev r0_7 : Rect S8x3 := Rect.unit (s := S8x3) ![0, 0] S8x3.size inb_S8x3_S8x3_0_0

def out0_6 (x0 : Vec F S8x1024 .bf16) (x1 : Vec F S1024x1024 .bf16) (x2 : Vec F S20000x1024 .bf16) (x3 : Vec F S1x20000 .f32) (x4 : Vec F S3x1024 .bf16) (x5 : Vec F S1x3 .f32) : Vec F S8x20000 .f32 :=
  View.canon [⟨r0_6, k0_pay6 (View.ld x0 r0_0) (View.ld x1 r0_1) (View.ld x2 r0_2) (View.ld x3 r0_3) (View.ld x4 r0_4) (View.ld x5 r0_5)⟩]

def out0_7 (x0 : Vec F S8x1024 .bf16) (x1 : Vec F S1024x1024 .bf16) (x2 : Vec F S20000x1024 .bf16) (x3 : Vec F S1x20000 .f32) (x4 : Vec F S3x1024 .bf16) (x5 : Vec F S1x3 .f32) : Vec F S8x3 .f32 :=
  View.canon [⟨r0_7, k0_pay1 (k0_pay4 (View.ld x0 r0_0) (View.ld x1 r0_1) (View.ld x4 r0_4) (View.ld x5 r0_5)) (k0_pay5 (View.ld x0 r0_0) (View.ld x1 r0_1) (View.ld x2 r0_2) (View.ld x3 r0_3) (View.ld x4 r0_4) (View.ld x5 r0_5))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0 (c : Dev nD) : ∀ w : Fin cfg0.W, (cfg0.win w).isOut = false → ∀ t d, (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d =>
    ((dat0 V c).before_in_eq_fetched _ rfl (fun _ => rfl) (fun _ _ _ => rfl) (fun _ => rfl) t d).trans rfl
  | ⟨6, _⟩, h, _, _ | ⟨7, _⟩, h, _, _ => nomatch h

set_option maxHeartbeats 1000000 in
-- The body only reads its inputs and stores each output whole, so an output ends at the stored value.
theorem body_obligation0 (c : Dev nD) : BodyObligation (dat0 (F := F) V c) (defs₀ (F := F)) Variants.none () Set.univ := fun t => by
  rw [bigSep_W0, bigSep_W0]
  simp (disch := rfl) only [before0 V c]
  dsimp only [dat0]
  change _ ⊢ wp frame _ _ (bodyAt0 t) _
  unfold bodyAt0
  simp only [cc0__head_kernel_eq_skeleton]; unfold cc0__head_kernel_skel
  simp only [k0_part1_eq_skeleton]; unfold k0_part1_skel
  generalize iblk0 V c 0 t = x0; generalize iblk0 V c 1 t = x1; generalize iblk0 V c 2 t = x2; generalize iblk0 V c 3 t = x3; generalize iblk0 V c 4 t = x4; generalize iblk0 V c 5 t = x5
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩, %_, %f7, -, H7⟩
  subst hf0 hf1 hf2 hf3 hf4 hf5
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact View.read_writes_eq_canon _ _ _ (View.cover_of_tiled _ S8x20000.size (by rfl))
  iexists _; isplitr; swap; · iexact H7
  ipureintro; exact View.read_writes_eq_canon _ _ _ (View.cover_of_tiled _ S8x3.size (by rfl))

end Cert.Kernel.Frm

end
-- ==== Proof.K.Tail1.lean ====
import proofs.«411270_j76149770158357_2_alg».proof.Proof.Gen.Kernel.Launch
import proofs.«411270_j76149770158357_2_alg».proof.Proof.Gen.Kernel.Skeleton
import proofs.«411270_j76149770158357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S64x1024 := Rect.unit (s := S64x1024) ![0, 0] S64x1024.size inb_S64x1024_S64x1024_0_0
abbrev r1_1 : Rect S256x1024 := Rect.unit (s := S256x1024) ![0, 0] S256x1024.size inb_S256x1024_S256x1024_0_0
abbrev r1_2 : Rect S20000x256 := Rect.unit (s := S20000x256) ![0, 0] S20000x256.size inb_S20000x256_S20000x256_0_0
abbrev r1_3 : Rect S1x20000 := Rect.unit (s := S1x20000) ![0, 0] S1x20000.size inb_S1x20000_S1x20000_0_0
abbrev r1_4 : Rect S64x1 := Rect.unit (s := S64x1) ![0, 0] S64x1.size inb_S64x1_S64x1_0_0
abbrev r1_5 : Rect S64x20000 := Rect.unit (s := S64x20000) ![0, 0] S64x20000.size inb_S64x20000_S64x20000_0_0

def out1_5 (x0 : Vec F S64x1024 .bf16) (x1 : Vec F S256x1024 .bf16) (x2 : Vec F S20000x256 .bf16) (x3 : Vec F S1x20000 .f32) (x4 : Vec F S64x1 .f32) : Vec F S64x20000 .f32 :=
  View.canon [⟨r1_5, k1_pay1 (View.ld x0 r1_0) (View.ld x1 r1_1) (View.ld x2 r1_2) (View.ld x3 r1_3) (View.ld x4 r1_4)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) : ∀ w : Fin cfg1.W, (cfg1.win w).isOut = false → ∀ t d, (dat1 V c).before w t d = (dat1 V c).after w t
  | ⟨0, _⟩, _, t, d | ⟨1, _⟩, _, t, d | ⟨2, _⟩, _, t, d | ⟨3, _⟩, _, t, d | ⟨4, _⟩, _, t, d =>
    ((dat1 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation1 (c : Dev nD) : BodyObligation (dat1 (F := F) V c) (defs₀ (F := F)) Variants.none () Set.univ := fun t => by
  rw [bigSep_W1, bigSep_W1]
  simp (disch := rfl) only [before1 V c]
  dsimp only [dat1]
  change _ ⊢ wp frame _ _ (bodyAt1 t) _
  unfold bodyAt1
  simp only [cc1__tail_kernel_eq_skeleton]; unfold cc1__tail_kernel_skel
  generalize iblk1 V c 0 t = x0; generalize iblk1 V c 1 t = x1; generalize iblk1 V c 2 t = x2; generalize iblk1 V c 3 t = x3; generalize iblk1 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S64x20000.size (by rfl))

end Cert.Kernel.Frm

end
-- ==== Proof.K.Tail2.lean ====
import proofs.«411270_j76149770158357_2_alg».proof.Proof.Gen.Kernel.Launch
import proofs.«411270_j76149770158357_2_alg».proof.Proof.Gen.Kernel.Skeleton
import proofs.«411270_j76149770158357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8x1024 := Rect.unit (s := S8x1024) ![0, 0] S8x1024.size inb_S8x1024_S8x1024_0_0
abbrev r2_1 : Rect S64x1024 := Rect.unit (s := S64x1024) ![0, 0] S64x1024.size inb_S64x1024_S64x1024_0_0
abbrev r2_2 : Rect S160000x64 := Rect.unit (s := S160000x64) ![0, 0] S160000x64.size inb_S160000x64_S160000x64_0_0
abbrev r2_3 : Rect S1x160000 := Rect.unit (s := S1x160000) ![0, 0] S1x160000.size inb_S1x160000_S1x160000_0_0
abbrev r2_4 : Rect S8x1 := Rect.unit (s := S8x1) ![0, 0] S8x1.size inb_S8x1_S8x1_0_0
abbrev r2_5 : Rect S8x160000 := Rect.unit (s := S8x160000) ![0, 0] S8x160000.size inb_S8x160000_S8x160000_0_0

def out2_5 (x0 : Vec F S8x1024 .bf16) (x1 : Vec F S64x1024 .bf16) (x2 : Vec F S160000x64 .bf16) (x3 : Vec F S1x160000 .f32) (x4 : Vec F S8x1 .f32) : Vec F S8x160000 .f32 :=
  View.canon [⟨r2_5, k2_pay1 (View.ld x0 r2_0) (View.ld x1 r2_1) (View.ld x2 r2_2) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) : ∀ w : Fin cfg2.W, (cfg2.win w).isOut = false → ∀ t d, (dat2 V c).before w t d = (dat2 V c).after w t
  | ⟨0, _⟩, _, t, d | ⟨1, _⟩, _, t, d | ⟨2, _⟩, _, t, d | ⟨3, _⟩, _, t, d | ⟨4, _⟩, _, t, d =>
    ((dat2 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation2 (c : Dev nD) : BodyObligation (dat2 (F := F) V c) (defs₀ (F := F)) Variants.none () Set.univ := fun t => by
  rw [bigSep_W2, bigSep_W2]
  simp (disch := rfl) only [before2 V c]
  dsimp only [dat2]
  change _ ⊢ wp frame _ _ (bodyAt2 t) _
  unfold bodyAt2
  simp only [cc2__tail_kernel_eq_skeleton]; unfold cc2__tail_kernel_skel
  generalize iblk2 V c 0 t = x0; generalize iblk2 V c 1 t = x1; generalize iblk2 V c 2 t = x2; generalize iblk2 V c 3 t = x3; generalize iblk2 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S8x160000.size (by rfl))

end Cert.Kernel.Frm

end
-- ==== Proof.K.Tail3.lean ====
import proofs.«411270_j76149770158357_2_alg».proof.Proof.Gen.Kernel.Launch
import proofs.«411270_j76149770158357_2_alg».proof.Proof.Gen.Kernel.Skeleton
import proofs.«411270_j76149770158357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S32x1024 := Rect.unit (s := S32x1024) ![0, 0] S32x1024.size inb_S32x1024_S32x1024_0_0
abbrev r3_1 : Rect S16x1024 := Rect.unit (s := S16x1024) ![0, 0] S16x1024.size inb_S16x1024_S16x1024_0_0
abbrev r3_2 : Rect S67735x16 := Rect.unit (s := S67735x16) ![0, 0] S67735x16.size inb_S67735x16_S67735x16_0_0
abbrev r3_3 : Rect S1x67735 := Rect.unit (s := S1x67735) ![0, 0] S1x67735.size inb_S1x67735_S1x67735_0_0
abbrev r3_4 : Rect S32x1 := Rect.unit (s := S32x1) ![0, 0] S32x1.size inb_S32x1_S32x1_0_0
abbrev r3_5 : Rect S32x67735 := Rect.unit (s := S32x67735) ![0, 0] S32x67735.size inb_S32x67735_S32x67735_0_0

def out3_5 (x0 : Vec F S32x1024 .bf16) (x1 : Vec F S16x1024 .bf16) (x2 : Vec F S67735x16 .bf16) (x3 : Vec F S1x67735 .f32) (x4 : Vec F S32x1 .f32) : Vec F S32x67735 .f32 :=
  View.canon [⟨r3_5, k3_pay1 (View.ld x0 r3_0) (View.ld x1 r3_1) (View.ld x2 r3_2) (View.ld x3 r3_3) (View.ld x4 r3_4)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) : ∀ w : Fin cfg3.W, (cfg3.win w).isOut = false → ∀ t d, (dat3 V c).before w t d = (dat3 V c).after w t
  | ⟨0, _⟩, _, t, d | ⟨1, _⟩, _, t, d | ⟨2, _⟩, _, t, d | ⟨3, _⟩, _, t, d | ⟨4, _⟩, _, t, d =>
    ((dat3 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation3 (c : Dev nD) : BodyObligation (dat3 (F := F) V c) (defs₀ (F := F)) Variants.none () Set.univ := fun t => by
  rw [bigSep_W3, bigSep_W3]
  simp (disch := rfl) only [before3 V c]
  dsimp only [dat3]
  change _ ⊢ wp frame _ _ (bodyAt3 t) _
  unfold bodyAt3
  simp only [cc3__tail_kernel_eq_skeleton]; unfold cc3__tail_kernel_skel
  generalize iblk3 V c 0 t = x0; generalize iblk3 V c 1 t = x1; generalize iblk3 V c 2 t = x2; generalize iblk3 V c 3 t = x3; generalize iblk3 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S32x67735.size (by rfl))

end Cert.Kernel.Frm

end
-- ==== Proof.K.Run.lean ====
import proofs.«411270_j76149770158357_2_alg».proof.Proof.K.Head
import proofs.«411270_j76149770158357_2_alg».proof.Proof.K.Tail1
import proofs.«411270_j76149770158357_2_alg».proof.Proof.K.Tail2
import proofs.«411270_j76149770158357_2_alg».proof.Proof.K.Tail3
import proofs.«411270_j76149770158357_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)

abbrev ent0 : (c : Dev nD) → (b : Ref sig .tc) → Buf (Elt F) ((c : Thread nD τ).loc b) := fun c b => W1 m c b
noncomputable def W2 (c : Dev nD) : Valuation τ sig (Elt F) :=
  Pipeline.withArrays spec0 c (W1 m c) fun w => (dat0 (ent0 m) c).arrAt w cfg0.N
theorem W2_arr (c : Dev nD) (w : Fin cfg0.W) :
    W2 m c (Proc.devRef .tc (Pipeline.arrRef spec0 w)) = (dat0 (ent0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)

abbrev ent1 : (c : Dev nD) → (b : Ref sig .tc) → Buf (Elt F) ((c : Thread nD τ).loc b) := fun c b => W3 m c b
noncomputable def W4 (c : Dev nD) : Valuation τ sig (Elt F) :=
  Pipeline.withArrays spec1 c (W3 m c) fun w => (dat1 (ent1 m) c).arrAt w cfg1.N
theorem W4_arr (c : Dev nD) (w : Fin cfg1.W) :
    W4 m c (Proc.devRef .tc (Pipeline.arrRef spec1 w)) = (dat1 (ent1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 : Dev nD → Valuation τ sig (Elt F) := fun c => StableHlo.after hostOps2 (W4 m c)

abbrev ent2 : (c : Dev nD) → (b : Ref sig .tc) → Buf (Elt F) ((c : Thread nD τ).loc b) := fun c b => W5 m c b
noncomputable def W6 (c : Dev nD) : Valuation τ sig (Elt F) :=
  Pipeline.withArrays spec2 c (W5 m c) fun w => (dat2 (ent2 m) c).arrAt w cfg2.N
theorem W6_arr (c : Dev nD) (w : Fin cfg2.W) :
    W6 m c (Proc.devRef .tc (Pipeline.arrRef spec2 w)) = (dat2 (ent2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev W7 : Dev nD → Valuation τ sig (Elt F) := fun c => StableHlo.after hostOps3 (W6 m c)

abbrev ent3 : (c : Dev nD) → (b : Ref sig .tc) → Buf (Elt F) ((c : Thread nD τ).loc b) := fun c b => W7 m c b
noncomputable def W8 (c : Dev nD) : Valuation τ sig (Elt F) :=
  Pipeline.withArrays spec3 c (W7 m c) fun w => (dat3 (ent3 m) c).arrAt w cfg3.N
theorem W8_arr (c : Dev nD) (w : Fin cfg3.W) :
    W8 m c (Proc.devRef .tc (Pipeline.arrRef spec3 w)) = (dat3 (ent3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev W9 : Dev nD → Valuation τ sig (Elt F) := fun c => StableHlo.after hostOps4 (W8 m c)
abbrev W10 : Dev nD → Valuation τ sig (Elt F) := fun c => StableHlo.after hostOps4_1 (W9 m c)
abbrev W11 : Dev nD → Valuation τ sig (Elt F) := fun c => StableHlo.after hostOps4_2 (W10 m c)

theorem W11_of (c : Dev nD) (r : Ref sig .tc) (h0 : r ∉ hostOps0_W) (h1 : r ∉ hostOps1_W) (h2 : r ∉ hostOps2_W) (h3 : r ∉ hostOps3_W)
    (h4 : r ∉ hostOps4_W) (h41 : r ∉ hostOps4_1_W) (h42 : r ∉ hostOps4_2_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W11 m c (Proc.devRef .tc r) = m ((c : Thread nD τ).loc r) :=
  calc W11 m c (Proc.devRef .tc r)
    _ = W10 m c (Proc.devRef .tc r) := StableHlo.after_of_writes_sub hostOps4_2 _ hostOps4_2_writes h42
    _ = W9 m c (Proc.devRef .tc r) := StableHlo.after_of_writes_sub hostOps4_1 _ hostOps4_1_writes h41
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

abbrev argRefs : List (Ref sig .tc) := [main_arg0, main_arg1, main_arg2, main_arg3, main_arg4, main_arg5, main_arg6, main_arg7, main_arg8, main_arg9, main_arg10, main_arg11, main_arg12, main_arg13, main_arg14, main_arg15]

theorem W11_arg (c : Dev nD) : ∀ r ∈ argRefs, W11 m c (Proc.devRef .tc r) = m ((c : Thread nD τ).loc r) := by
  intro r hr
  refine W11_of m c r ?_ ?_ ?_ ?_ ?_ ?_ ?_ ?_ ?_ ?_ ?_ <;> (revert r; decide)

noncomputable def pdat : (p : Fin 4) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
abbrev 𝒱n : Variants := Variants.none
abbrev Ln : GSem nD τ sig → Finset Unit := fun _ => ∅
abbrev lvn : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W11 m c) ∗ ∃ r, prngReg c r)

abbrev atTc (W : Dev nD → Valuation τ sig (Elt F)) : (c : Dev nD) → (b : Ref sig .tc) → Buf (Elt F) ((c : Thread nD τ).loc b) :=
  fun c b => W c b

set_option backward.isDefEq.respectTransparency.types false in
-- The four regions differ only in their index and data: one construction, from facts each of them has by definition.
noncomputable def reg (p : Fin 4) (L : Pipeline.LaunchFacts (nD := nD) (τ := τ) cfgs p) (Wi Wo : Dev nD → Valuation τ sig (Elt F))
    (hb : ∀ c, BodyObligation (pdat m p c) defs₀ 𝒱n () Set.univ)
    (hq : ∀ c w, (pdat m p c).q w = fullShare)
    (hA : ∀ c w, (pdat m p c).A w = atTc Wi c (Pipeline.arrRef (cfgs p).spec w))
    (howed : ∀ c t, (pdat m p c).owed t = 0) (hrec : ∀ c, (pdat m p c).recorded 0 = Set.univ)
    (hΦ : ∀ c t, (pdat m p c).Φ t = Pipeline.ΦA (cfgs p).spec c)
    (hF : ∀ c w, Wo c (Proc.devRef .tc (Pipeline.arrRef (cfgs p).spec w)) = (pdat m p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdat m) () defs₀ 𝒱n Ln lvn p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Ln lvn p howed
  pre c := iprop(StableHlo.held (c : Thread nD τ) (Pipeline.ucRefs τ sig) (Wi c) ∗ Rst c)
  post c := iprop(StableHlo.held (c : Thread nD τ) (Pipeline.ucRefs τ sig) (Wo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Wi c)
  hentry c := by
    rw [Pipeline.ownSems0_none]
    have hsplit := Pipeline.arrays_of_unscopedBufs (p := p) (pcfgs (F := F)) adm (pdat m) L.win L.arr_whole c
      ((pdat m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdat m) ((pdat m p c).share_full (hq c))
      (atTc Wi c) (atTc Wo c) ((pdat m p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev segsAll : List (Pipeline.Seg (pcfgs (F := F)) adm (pdat m) () defs₀ 𝒱n Ln lvn) :=
  [ .host (hseg hostOps0 hostOps0_sub hostOps0_fresh (W0 m)),
    .region (reg m 0 launch0 (W1 m) (W2 m) (body_obligation0 (ent0 m)) (fun _ _ => rfl) (fun _ _ => rfl) (fun _ _ => rfl) (fun _ => rfl) (fun _ _ => rfl)
      (W2_arr m) (W2_of_ne m)),
    .host (hseg hostOps1 hostOps1_sub hostOps1_fresh (W2 m)),
    .region (reg m 1 launch1 (W3 m) (W4 m) (body_obligation1 (ent1 m)) (fun _ _ => rfl) (fun _ _ => rfl) (fun _ _ => rfl) (fun _ => rfl) (fun _ _ => rfl)
      (W4_arr m) (W4_of_ne m)),
    .host (hseg hostOps2 hostOps2_sub hostOps2_fresh (W4 m)),
    .region (reg m 2 launch2 (W5 m) (W6 m) (body_obligation2 (ent2 m)) (fun _ _ => rfl) (fun _ _ => rfl) (fun _ _ => rfl) (fun _ => rfl) (fun _ _ => rfl)
      (W6_arr m) (W6_of_ne m)),
    .host (hseg hostOps3 hostOps3_sub hostOps3_fresh (W6 m)),
    .region (reg m 3 launch3 (W7 m) (W8 m) (body_obligation3 (ent3 m)) (fun _ _ => rfl) (fun _ _ => rfl) (fun _ _ => rfl) (fun _ => rfl) (fun _ _ => rfl)
      (W8_arr m) (W8_of_ne m)),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)) ]
theorem main_run (c : Dev nD) : main (F := F) c = Pipeline.Seg.run (segsAll m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdat m) () cellOf_inj emb₁ defs₀ 𝒱n Ln lvn m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ Rst c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

theorem kept_arg (c : Dev nD) (mem : (ℓ : Loc nD τ sig) → Buf (Elt F) ℓ)
    (h : ∀ b ∈ Pipeline.ucRefs τ sig, mem (((c : Thread nD τ)).1, b) = W11 m c b) (r : Ref sig .tc) (hr : r ∈ argRefs) :
    mem ((c.tc : Thread nD τ).loc r) = m ((c.tc : Thread nD τ).loc r) :=
  (h _ (mem_uc r (by revert r; decide))).trans (W11_arg m c r hr)

end Cert.Kernel.Frm

end
-- ==== Proof.KI.Head.lean ====
import proofs.«411270_j76149770158357_2_alg».proof.Proof.Gen.KernelIdeal.Launch
import proofs.«411270_j76149770158357_2_alg».proof.Proof.Gen.KernelIdeal.Skeleton
import proofs.«411270_j76149770158357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8x1024 := Rect.unit (s := S8x1024) ![0, 0] S8x1024.size inb_S8x1024_S8x1024_0_0
abbrev r0_1 : Rect S1024x1024 := Rect.unit (s := S1024x1024) ![0, 0] S1024x1024.size inb_S1024x1024_S1024x1024_0_0
abbrev r0_2 : Rect S20000x1024 := Rect.unit (s := S20000x1024) ![0, 0] S20000x1024.size inb_S20000x1024_S20000x1024_0_0
abbrev r0_3 : Rect S1x20000 := Rect.unit (s := S1x20000) ![0, 0] S1x20000.size inb_S1x20000_S1x20000_0_0
abbrev r0_4 : Rect S3x1024 := Rect.unit (s := S3x1024) ![0, 0] S3x1024.size inb_S3x1024_S3x1024_0_0
abbrev r0_5 : Rect S1x3 := Rect.unit (s := S1x3) ![0, 0] S1x3.size inb_S1x3_S1x3_0_0
abbrev r0_6 : Rect S8x20000 := Rect.unit (s := S8x20000) ![0, 0] S8x20000.size inb_S8x20000_S8x20000_0_0
abbrev r0_7 : Rect S8x3 := Rect.unit (s := S8x3) ![0, 0] S8x3.size inb_S8x3_S8x3_0_0

def out0_6 (x0 : Vec F S8x1024 .bf16) (x1 : Vec F S1024x1024 .bf16) (x2 : Vec F S20000x1024 .bf16) (x3 : Vec F S1x20000 .f32) (x4 : Vec F S3x1024 .bf16) (x5 : Vec F S1x3 .f32) : Vec F S8x20000 .f32 :=
  View.canon [⟨r0_6, k0_pay6 (View.ld x0 r0_0) (View.ld x1 r0_1) (View.ld x2 r0_2) (View.ld x3 r0_3) (View.ld x4 r0_4) (View.ld x5 r0_5)⟩]

def out0_7 (x0 : Vec F S8x1024 .bf16) (x1 : Vec F S1024x1024 .bf16) (x2 : Vec F S20000x1024 .bf16) (x3 : Vec F S1x20000 .f32) (x4 : Vec F S3x1024 .bf16) (x5 : Vec F S1x3 .f32) : Vec F S8x3 .f32 :=
  View.canon [⟨r0_7, k0_pay1 (k0_pay4 (View.ld x0 r0_0) (View.ld x1 r0_1) (View.ld x4 r0_4) (View.ld x5 r0_5)) (k0_pay5 (View.ld x0 r0_0) (View.ld x1 r0_1) (View.ld x2 r0_2) (View.ld x3 r0_3) (View.ld x4 r0_4) (View.ld x5 r0_5))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0 (c : Dev nD) : ∀ w : Fin cfg0.W, (cfg0.win w).isOut = false → ∀ t d, (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d =>
    ((dat0 V c).before_in_eq_fetched _ rfl (fun _ => rfl) (fun _ _ _ => rfl) (fun _ => rfl) t d).trans rfl
  | ⟨6, _⟩, h, _, _ | ⟨7, _⟩, h, _, _ => nomatch h

set_option maxHeartbeats 1000000 in
-- The body only reads its inputs and stores each output whole, so an output ends at the stored value.
theorem body_obligation0 (c : Dev nD) : BodyObligation (dat0 (F := F) V c) (defs₀ (F := F)) Variants.none () Set.univ := fun t => by
  rw [bigSep_W0, bigSep_W0]
  simp (disch := rfl) only [before0 V c]
  dsimp only [dat0]
  change _ ⊢ wp frame _ _ (bodyAt0 t) _
  unfold bodyAt0
  simp only [cc0__head_kernel_eq_skeleton]; unfold cc0__head_kernel_skel
  simp only [k0_part1_eq_skeleton]; unfold k0_part1_skel
  generalize iblk0 V c 0 t = x0; generalize iblk0 V c 1 t = x1; generalize iblk0 V c 2 t = x2; generalize iblk0 V c 3 t = x3; generalize iblk0 V c 4 t = x4; generalize iblk0 V c 5 t = x5
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩, %_, %f7, -, H7⟩
  subst hf0 hf1 hf2 hf3 hf4 hf5
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact View.read_writes_eq_canon _ _ _ (View.cover_of_tiled _ S8x20000.size (by rfl))
  iexists _; isplitr; swap; · iexact H7
  ipureintro; exact View.read_writes_eq_canon _ _ _ (View.cover_of_tiled _ S8x3.size (by rfl))

end Cert.KernelIdeal.Frm

end
-- ==== Proof.KI.Tail1.lean ====
import proofs.«411270_j76149770158357_2_alg».proof.Proof.Gen.KernelIdeal.Launch
import proofs.«411270_j76149770158357_2_alg».proof.Proof.Gen.KernelIdeal.Skeleton
import proofs.«411270_j76149770158357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S64x1024 := Rect.unit (s := S64x1024) ![0, 0] S64x1024.size inb_S64x1024_S64x1024_0_0
abbrev r1_1 : Rect S256x1024 := Rect.unit (s := S256x1024) ![0, 0] S256x1024.size inb_S256x1024_S256x1024_0_0
abbrev r1_2 : Rect S20000x256 := Rect.unit (s := S20000x256) ![0, 0] S20000x256.size inb_S20000x256_S20000x256_0_0
abbrev r1_3 : Rect S1x20000 := Rect.unit (s := S1x20000) ![0, 0] S1x20000.size inb_S1x20000_S1x20000_0_0
abbrev r1_4 : Rect S64x1 := Rect.unit (s := S64x1) ![0, 0] S64x1.size inb_S64x1_S64x1_0_0
abbrev r1_5 : Rect S64x20000 := Rect.unit (s := S64x20000) ![0, 0] S64x20000.size inb_S64x20000_S64x20000_0_0

def out1_5 (x0 : Vec F S64x1024 .bf16) (x1 : Vec F S256x1024 .bf16) (x2 : Vec F S20000x256 .bf16) (x3 : Vec F S1x20000 .f32) (x4 : Vec F S64x1 .f32) : Vec F S64x20000 .f32 :=
  View.canon [⟨r1_5, k1_pay1 (View.ld x0 r1_0) (View.ld x1 r1_1) (View.ld x2 r1_2) (View.ld x3 r1_3) (View.ld x4 r1_4)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) : ∀ w : Fin cfg1.W, (cfg1.win w).isOut = false → ∀ t d, (dat1 V c).before w t d = (dat1 V c).after w t
  | ⟨0, _⟩, _, t, d | ⟨1, _⟩, _, t, d | ⟨2, _⟩, _, t, d | ⟨3, _⟩, _, t, d | ⟨4, _⟩, _, t, d =>
    ((dat1 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation1 (c : Dev nD) : BodyObligation (dat1 (F := F) V c) (defs₀ (F := F)) Variants.none () Set.univ := fun t => by
  rw [bigSep_W1, bigSep_W1]
  simp (disch := rfl) only [before1 V c]
  dsimp only [dat1]
  change _ ⊢ wp frame _ _ (bodyAt1 t) _
  unfold bodyAt1
  simp only [cc1__tail_kernel_eq_skeleton]; unfold cc1__tail_kernel_skel
  generalize iblk1 V c 0 t = x0; generalize iblk1 V c 1 t = x1; generalize iblk1 V c 2 t = x2; generalize iblk1 V c 3 t = x3; generalize iblk1 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S64x20000.size (by rfl))

end Cert.KernelIdeal.Frm

end
-- ==== Proof.KI.Tail2.lean ====
import proofs.«411270_j76149770158357_2_alg».proof.Proof.Gen.KernelIdeal.Launch
import proofs.«411270_j76149770158357_2_alg».proof.Proof.Gen.KernelIdeal.Skeleton
import proofs.«411270_j76149770158357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8x1024 := Rect.unit (s := S8x1024) ![0, 0] S8x1024.size inb_S8x1024_S8x1024_0_0
abbrev r2_1 : Rect S64x1024 := Rect.unit (s := S64x1024) ![0, 0] S64x1024.size inb_S64x1024_S64x1024_0_0
abbrev r2_2 : Rect S160000x64 := Rect.unit (s := S160000x64) ![0, 0] S160000x64.size inb_S160000x64_S160000x64_0_0
abbrev r2_3 : Rect S1x160000 := Rect.unit (s := S1x160000) ![0, 0] S1x160000.size inb_S1x160000_S1x160000_0_0
abbrev r2_4 : Rect S8x1 := Rect.unit (s := S8x1) ![0, 0] S8x1.size inb_S8x1_S8x1_0_0
abbrev r2_5 : Rect S8x160000 := Rect.unit (s := S8x160000) ![0, 0] S8x160000.size inb_S8x160000_S8x160000_0_0

def out2_5 (x0 : Vec F S8x1024 .bf16) (x1 : Vec F S64x1024 .bf16) (x2 : Vec F S160000x64 .bf16) (x3 : Vec F S1x160000 .f32) (x4 : Vec F S8x1 .f32) : Vec F S8x160000 .f32 :=
  View.canon [⟨r2_5, k2_pay1 (View.ld x0 r2_0) (View.ld x1 r2_1) (View.ld x2 r2_2) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) : ∀ w : Fin cfg2.W, (cfg2.win w).isOut = false → ∀ t d, (dat2 V c).before w t d = (dat2 V c).after w t
  | ⟨0, _⟩, _, t, d | ⟨1, _⟩, _, t, d | ⟨2, _⟩, _, t, d | ⟨3, _⟩, _, t, d | ⟨4, _⟩, _, t, d =>
    ((dat2 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation2 (c : Dev nD) : BodyObligation (dat2 (F := F) V c) (defs₀ (F := F)) Variants.none () Set.univ := fun t => by
  rw [bigSep_W2, bigSep_W2]
  simp (disch := rfl) only [before2 V c]
  dsimp only [dat2]
  change _ ⊢ wp frame _ _ (bodyAt2 t) _
  unfold bodyAt2
  simp only [cc2__tail_kernel_eq_skeleton]; unfold cc2__tail_kernel_skel
  generalize iblk2 V c 0 t = x0; generalize iblk2 V c 1 t = x1; generalize iblk2 V c 2 t = x2; generalize iblk2 V c 3 t = x3; generalize iblk2 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S8x160000.size (by rfl))

end Cert.KernelIdeal.Frm

end
-- ==== Proof.KI.Tail3.lean ====
import proofs.«411270_j76149770158357_2_alg».proof.Proof.Gen.KernelIdeal.Launch
import proofs.«411270_j76149770158357_2_alg».proof.Proof.Gen.KernelIdeal.Skeleton
import proofs.«411270_j76149770158357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S32x1024 := Rect.unit (s := S32x1024) ![0, 0] S32x1024.size inb_S32x1024_S32x1024_0_0
abbrev r3_1 : Rect S16x1024 := Rect.unit (s := S16x1024) ![0, 0] S16x1024.size inb_S16x1024_S16x1024_0_0
abbrev r3_2 : Rect S67735x16 := Rect.unit (s := S67735x16) ![0, 0] S67735x16.size inb_S67735x16_S67735x16_0_0
abbrev r3_3 : Rect S1x67735 := Rect.unit (s := S1x67735) ![0, 0] S1x67735.size inb_S1x67735_S1x67735_0_0
abbrev r3_4 : Rect S32x1 := Rect.unit (s := S32x1) ![0, 0] S32x1.size inb_S32x1_S32x1_0_0
abbrev r3_5 : Rect S32x67735 := Rect.unit (s := S32x67735) ![0, 0] S32x67735.size inb_S32x67735_S32x67735_0_0

def out3_5 (x0 : Vec F S32x1024 .bf16) (x1 : Vec F S16x1024 .bf16) (x2 : Vec F S67735x16 .bf16) (x3 : Vec F S1x67735 .f32) (x4 : Vec F S32x1 .f32) : Vec F S32x67735 .f32 :=
  View.canon [⟨r3_5, k3_pay1 (View.ld x0 r3_0) (View.ld x1 r3_1) (View.ld x2 r3_2) (View.ld x3 r3_3) (View.ld x4 r3_4)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) : ∀ w : Fin cfg3.W, (cfg3.win w).isOut = false → ∀ t d, (dat3 V c).before w t d = (dat3 V c).after w t
  | ⟨0, _⟩, _, t, d | ⟨1, _⟩, _, t, d | ⟨2, _⟩, _, t, d | ⟨3, _⟩, _, t, d | ⟨4, _⟩, _, t, d =>
    ((dat3 V c).before_in_eq_fetched _ rfl (fun _ => rfl) (fun _ _ _ => rfl) (fun _ => rfl) t d).trans rfl
  | ⟨5, _⟩, h, _, _ => nomatch h

set_option maxHeartbeats 1000000 in
-- The body only reads its inputs and stores its output whole, so an output ends at the stored value.
theorem body_obligation3 (c : Dev nD) : BodyObligation (dat3 (F := F) V c) (defs₀ (F := F)) Variants.none () Set.univ := fun t => by
  rw [bigSep_W3, bigSep_W3]
  simp (disch := rfl) only [before3 V c]
  dsimp only [dat3]
  change _ ⊢ wp frame _ _ (bodyAt3 t) _
  unfold bodyAt3
  simp only [cc3__tail_kernel_eq_skeleton]; unfold cc3__tail_kernel_skel
  generalize iblk3 V c 0 t = x0; generalize iblk3 V c 1 t = x1; generalize iblk3 V c 2 t = x2; generalize iblk3 V c 3 t = x3; generalize iblk3 V c 4 t = x4
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, %_, %f5, -, H5⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr; swap; · iexact H5
  ipureintro; exact View.read_writes_eq_canon _ _ _ (View.cover_of_tiled _ S32x67735.size (by rfl))

end Cert.KernelIdeal.Frm

end
-- ==== Proof.KI.Run.lean ====
import proofs.«411270_j76149770158357_2_alg».proof.Proof.KI.Head
import proofs.«411270_j76149770158357_2_alg».proof.Proof.KI.Tail1
import proofs.«411270_j76149770158357_2_alg».proof.Proof.KI.Tail2
import proofs.«411270_j76149770158357_2_alg».proof.Proof.KI.Tail3
import proofs.«411270_j76149770158357_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)

abbrev ent0 : (c : Dev nD) → (b : Ref sig .tc) → Buf (Elt F) ((c : Thread nD τ).loc b) := fun c b => W1 m c b
noncomputable def W2 (c : Dev nD) : Valuation τ sig (Elt F) :=
  Pipeline.withArrays spec0 c (W1 m c) fun w => (dat0 (ent0 m) c).arrAt w cfg0.N
theorem W2_arr (c : Dev nD) (w : Fin cfg0.W) :
    W2 m c (Proc.devRef .tc (Pipeline.arrRef spec0 w)) = (dat0 (ent0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)

abbrev ent1 : (c : Dev nD) → (b : Ref sig .tc) → Buf (Elt F) ((c : Thread nD τ).loc b) := fun c b => W3 m c b
noncomputable def W4 (c : Dev nD) : Valuation τ sig (Elt F) :=
  Pipeline.withArrays spec1 c (W3 m c) fun w => (dat1 (ent1 m) c).arrAt w cfg1.N
theorem W4_arr (c : Dev nD) (w : Fin cfg1.W) :
    W4 m c (Proc.devRef .tc (Pipeline.arrRef spec1 w)) = (dat1 (ent1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 : Dev nD → Valuation τ sig (Elt F) := fun c => StableHlo.after hostOps2 (W4 m c)

abbrev ent2 : (c : Dev nD) → (b : Ref sig .tc) → Buf (Elt F) ((c : Thread nD τ).loc b) := fun c b => W5 m c b
noncomputable def W6 (c : Dev nD) : Valuation τ sig (Elt F) :=
  Pipeline.withArrays spec2 c (W5 m c) fun w => (dat2 (ent2 m) c).arrAt w cfg2.N
theorem W6_arr (c : Dev nD) (w : Fin cfg2.W) :
    W6 m c (Proc.devRef .tc (Pipeline.arrRef spec2 w)) = (dat2 (ent2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev W7 : Dev nD → Valuation τ sig (Elt F) := fun c => StableHlo.after hostOps3 (W6 m c)

abbrev ent3 : (c : Dev nD) → (b : Ref sig .tc) → Buf (Elt F) ((c : Thread nD τ).loc b) := fun c b => W7 m c b
noncomputable def W8 (c : Dev nD) : Valuation τ sig (Elt F) :=
  Pipeline.withArrays spec3 c (W7 m c) fun w => (dat3 (ent3 m) c).arrAt w cfg3.N
theorem W8_arr (c : Dev nD) (w : Fin cfg3.W) :
    W8 m c (Proc.devRef .tc (Pipeline.arrRef spec3 w)) = (dat3 (ent3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev W9 : Dev nD → Valuation τ sig (Elt F) := fun c => StableHlo.after hostOps4 (W8 m c)
abbrev W10 : Dev nD → Valuation τ sig (Elt F) := fun c => StableHlo.after hostOps4_1 (W9 m c)
abbrev W11 : Dev nD → Valuation τ sig (Elt F) := fun c => StableHlo.after hostOps4_2 (W10 m c)

theorem W11_of (c : Dev nD) (r : Ref sig .tc) (h0 : r ∉ hostOps0_W) (h1 : r ∉ hostOps1_W) (h2 : r ∉ hostOps2_W) (h3 : r ∉ hostOps3_W)
    (h4 : r ∉ hostOps4_W) (h41 : r ∉ hostOps4_1_W) (h42 : r ∉ hostOps4_2_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W11 m c (Proc.devRef .tc r) = m ((c : Thread nD τ).loc r) :=
  calc W11 m c (Proc.devRef .tc r)
    _ = W10 m c (Proc.devRef .tc r) := StableHlo.after_of_writes_sub hostOps4_2 _ hostOps4_2_writes h42
    _ = W9 m c (Proc.devRef .tc r) := StableHlo.after_of_writes_sub hostOps4_1 _ hostOps4_1_writes h41
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

abbrev argRefs : List (Ref sig .tc) := [main_arg0, main_arg1, main_arg2, main_arg3, main_arg4, main_arg5, main_arg6, main_arg7, main_arg8, main_arg9, main_arg10, main_arg11, main_arg12, main_arg13, main_arg14, main_arg15]

theorem W11_arg (c : Dev nD) : ∀ r ∈ argRefs, W11 m c (Proc.devRef .tc r) = m ((c : Thread nD τ).loc r) := by
  intro r hr
  refine W11_of m c r ?_ ?_ ?_ ?_ ?_ ?_ ?_ ?_ ?_ ?_ ?_ <;> (revert r; decide)

noncomputable def pdat : (p : Fin 4) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
abbrev 𝒱n : Variants := Variants.none
abbrev Ln : GSem nD τ sig → Finset Unit := fun _ => ∅
abbrev lvn : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W11 m c) ∗ ∃ r, prngReg c r)

abbrev atTc (W : Dev nD → Valuation τ sig (Elt F)) : (c : Dev nD) → (b : Ref sig .tc) → Buf (Elt F) ((c : Thread nD τ).loc b) :=
  fun c b => W c b

set_option backward.isDefEq.respectTransparency.types false in
-- The four regions differ only in their index and data: one construction, from facts each of them has by definition.
noncomputable def reg (p : Fin 4) (L : Pipeline.LaunchFacts (nD := nD) (τ := τ) cfgs p) (Wi Wo : Dev nD → Valuation τ sig (Elt F))
    (hb : ∀ c, BodyObligation (pdat m p c) defs₀ 𝒱n () Set.univ)
    (hq : ∀ c w, (pdat m p c).q w = fullShare)
    (hA : ∀ c w, (pdat m p c).A w = atTc Wi c (Pipeline.arrRef (cfgs p).spec w))
    (howed : ∀ c t, (pdat m p c).owed t = 0) (hrec : ∀ c, (pdat m p c).recorded 0 = Set.univ)
    (hΦ : ∀ c t, (pdat m p c).Φ t = Pipeline.ΦA (cfgs p).spec c)
    (hF : ∀ c w, Wo c (Proc.devRef .tc (Pipeline.arrRef (cfgs p).spec w)) = (pdat m p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdat m) () defs₀ 𝒱n Ln lvn p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Ln lvn p howed
  pre c := iprop(StableHlo.held (c : Thread nD τ) (Pipeline.ucRefs τ sig) (Wi c) ∗ Rst c)
  post c := iprop(StableHlo.held (c : Thread nD τ) (Pipeline.ucRefs τ sig) (Wo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Wi c)
  hentry c := by
    rw [Pipeline.ownSems0_none]
    have hsplit := Pipeline.arrays_of_unscopedBufs (p := p) (pcfgs (F := F)) adm (pdat m) L.win L.arr_whole c
      ((pdat m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdat m) ((pdat m p c).share_full (hq c))
      (atTc Wi c) (atTc Wo c) ((pdat m p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev segsAll : List (Pipeline.Seg (pcfgs (F := F)) adm (pdat m) () defs₀ 𝒱n Ln lvn) :=
  [ .host (hseg hostOps0 hostOps0_sub hostOps0_fresh (W0 m)),
    .region (reg m 0 launch0 (W1 m) (W2 m) (body_obligation0 (ent0 m)) (fun _ _ => rfl) (fun _ _ => rfl) (fun _ _ => rfl) (fun _ => rfl) (fun _ _ => rfl)
      (W2_arr m) (W2_of_ne m)),
    .host (hseg hostOps1 hostOps1_sub hostOps1_fresh (W2 m)),
    .region (reg m 1 launch1 (W3 m) (W4 m) (body_obligation1 (ent1 m)) (fun _ _ => rfl) (fun _ _ => rfl) (fun _ _ => rfl) (fun _ => rfl) (fun _ _ => rfl)
      (W4_arr m) (W4_of_ne m)),
    .host (hseg hostOps2 hostOps2_sub hostOps2_fresh (W4 m)),
    .region (reg m 2 launch2 (W5 m) (W6 m) (body_obligation2 (ent2 m)) (fun _ _ => rfl) (fun _ _ => rfl) (fun _ _ => rfl) (fun _ => rfl) (fun _ _ => rfl)
      (W6_arr m) (W6_of_ne m)),
    .host (hseg hostOps3 hostOps3_sub hostOps3_fresh (W6 m)),
    .region (reg m 3 launch3 (W7 m) (W8 m) (body_obligation3 (ent3 m)) (fun _ _ => rfl) (fun _ _ => rfl) (fun _ _ => rfl) (fun _ => rfl) (fun _ _ => rfl)
      (W8_arr m) (W8_of_ne m)),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)) ]
theorem main_run (c : Dev nD) : main (F := F) c = Pipeline.Seg.run (segsAll m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdat m) () cellOf_inj emb₁ defs₀ 𝒱n Ln lvn m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ Rst c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

theorem kept_arg (c : Dev nD) (mem : (ℓ : Loc nD τ sig) → Buf (Elt F) ℓ)
    (h : ∀ b ∈ Pipeline.ucRefs τ sig, mem (((c : Thread nD τ)).1, b) = W11 m c b) (r : Ref sig .tc) (hr : r ∈ argRefs) :
    mem ((c.tc : Thread nD τ).loc r) = m ((c.tc : Thread nD τ).loc r) :=
  (h _ (mem_uc r (by revert r; decide))).trans (W11_arg m c r hr)

end Cert.KernelIdeal.Frm

end
-- ==== Proof.Spec.lean ====
import Idealize.ShloMosaic.PureOps.Ideal
import Idealize.ShloMosaic.PureOps.Ideal.Laws
import Mathlib.Data.EReal.Basic
import Mathlib.Algebra.BigOperators.Fin

noncomputable section

namespace Cert.Spec

open Idealize.ShloMosaic

variable {T D E N K M : ℕ}

def proj (h : Fin T → Fin D → EReal) (P : Fin E → Fin D → EReal) (t : Fin T) (e : Fin E) : EReal :=
  ∑ d, h t d * P e d

def logit (h : Fin T → Fin D → EReal) (P : Fin E → Fin D → EReal) (W : Fin N → Fin E → EReal) (b : Fin N → EReal)
    (t : Fin T) (n : Fin N) : EReal :=
  (∑ e, proj h P t e * W n e) + b n

def vmax (L : Fin N → EReal) : EReal := (Finset.univ : Finset (Fin N)).fold max ⊥ L

def vsumexp (L : Fin N → EReal) (mx : EReal) : EReal := ∑ n, Ideal.exp (L n - mx)

def rLsm (L : Fin N → EReal) (n : Fin N) : EReal :=
  (L n - vmax L) - Ideal.log (vsumexp L (vmax L))

def headMax (Lw : Fin N → EReal) (Lc : Fin K → EReal) : EReal := max (vmax Lw) (vmax Lc)

def headLogZ (Lw : Fin N → EReal) (Lc : Fin K → EReal) : EReal :=
  headMax Lw Lc + Ideal.log (vsumexp Lw (headMax Lw Lc) + vsumexp Lc (headMax Lw Lc))

def kHead (Lw : Fin T → Fin N → EReal) (Lc : Fin T → Fin K → EReal) (t : Fin T) (n : Fin N) : EReal :=
  Lw t n - headLogZ (Lw t) (Lc t)

def kClus (Lw : Fin T → Fin N → EReal) (Lc : Fin T → Fin K → EReal) (t : Fin T) (j : Fin K) : EReal :=
  Lc t j - headLogZ (Lw t) (Lc t)

def kTail (L : Fin T → Fin N → EReal) (cadd : Fin T → EReal) (t : Fin T) (n : Fin N) : EReal :=
  (L t n - (vmax (L t) + Ideal.log (vsumexp (L t) (vmax (L t))))) + cadd t

def IsReal {ι : Type} (f : ι → EReal) : Prop := ∀ i, ∃ r : ℝ, f i = (r : EReal)

theorem logit_congr_row {T' : ℕ} (h : Fin T → Fin D → EReal) (h' : Fin T' → Fin D → EReal) (P : Fin E → Fin D → EReal)
    (W : Fin N → Fin E → EReal) (b : Fin N → EReal) (t : Fin T) (t' : Fin T') (hh : h t = h' t') :
    logit h P W b t = logit h' P W b t' := by
  funext n; simp only [logit, proj, hh]

theorem kTail_congr_row {T' : ℕ} (L : Fin T → Fin N → EReal) (L' : Fin T' → Fin N → EReal) (c : Fin T → EReal) (c' : Fin T' → EReal)
    (t : Fin T) (t' : Fin T') (hL : L t = L' t') (hc : c t = c' t') (n : Fin N) : kTail L c t n = kTail L' c' t' n := by
  simp only [kTail, hL, hc]

theorem kHead_congr_row {T' : ℕ} (Lw : Fin T → Fin N → EReal) (Lw' : Fin T' → Fin N → EReal) (Lc : Fin T → Fin K → EReal) (Lc' : Fin T' → Fin K → EReal)
    (t : Fin T) (t' : Fin T') (hw : Lw t = Lw' t') (hc : Lc t = Lc' t') (n : Fin N) : kHead Lw Lc t n = kHead Lw' Lc' t' n := by
  simp only [kHead, hw, hc]

theorem kClus_congr_row {T' : ℕ} (Lw : Fin T → Fin N → EReal) (Lw' : Fin T' → Fin N → EReal) (Lc : Fin T → Fin K → EReal) (Lc' : Fin T' → Fin K → EReal)
    (t : Fin T) (t' : Fin T') (hw : Lw t = Lw' t') (hc : Lc t = Lc' t') (j : Fin K) : kClus Lw Lc t j = kClus Lw' Lc' t' j := by
  simp only [kClus, hw, hc]

theorem isReal_sum {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

theorem vmax_le_iff (L : Fin N → EReal) (c : EReal) : vmax L ≤ c ↔ ∀ n, L n ≤ c := by
  unfold vmax
  rw [Finset.fold_max_le]
  constructor
  · intro h n
    exact h.2 n (Finset.mem_univ n)
  · intro h
    exact ⟨bot_le, fun n _ => h n⟩

theorem logit_isReal (h : Fin T → Fin D → EReal) (P : Fin E → Fin D → EReal) (W : Fin N → Fin E → EReal) (b : Fin N → EReal)
    (hh : ∀ t, IsReal (h t)) (hP : ∀ e, IsReal (P e)) (hW : ∀ n, IsReal (W n)) (hb : IsReal b) (t : Fin T) :
    IsReal (logit h P W b t) := by
  intro n
  have hy : ∀ e, ∃ r : ℝ, proj h P t e = (r : EReal) := by
    intro e
    unfold proj
    apply isReal_sum
    intro d
    obtain ⟨x, hx⟩ := hh t d
    obtain ⟨y, hy⟩ := hP e d
    exact ⟨x * y, by rw [hx, hy, EReal.coe_mul]⟩
  have hs : ∃ r : ℝ, ∑ e, proj h P t e * W n e = (r : EReal) := by
    apply isReal_sum
    intro e
    obtain ⟨x, hx⟩ := hy e
    obtain ⟨y, hy⟩ := hW n e
    exact ⟨x * y, by rw [hx, hy, EReal.coe_mul]⟩
  obtain ⟨s, hs⟩ := hs
  obtain ⟨c, hc⟩ := hb n
  exact ⟨s + c, by unfold logit; rw [hs, hc, EReal.coe_add]⟩

theorem vmax_isReal (hN : 0 < N) (L : Fin N → EReal) (hL : IsReal L) : ∃ r : ℝ, vmax L = (r : EReal) := by
  have htop : vmax L ≠ ⊤ := by
    apply ne_of_lt
    unfold vmax
    rw [Finset.fold_max_lt]
    refine ⟨bot_lt_top, fun n _ => ?_⟩
    obtain ⟨r, hr⟩ := hL n
    rw [hr]
    exact EReal.coe_lt_top r
  have hbot : vmax L ≠ ⊥ := by
    apply ne_of_gt
    unfold vmax
    rw [Finset.lt_fold_max]
    refine Or.inr ⟨⟨0, hN⟩, Finset.mem_univ _, ?_⟩
    obtain ⟨r, hr⟩ := hL ⟨0, hN⟩
    rw [hr]
    exact EReal.bot_lt_coe r
  exact ⟨(vmax L).toReal, (EReal.coe_toReal htop hbot).symm⟩

theorem vmax_append (hM : M = N + K) (A : Fin M → EReal) (B : Fin N → EReal) (C : Fin K → EReal)
    (hB : ∀ n : Fin N, A ⟨n.val, by omega⟩ = B n) (hC : ∀ j : Fin K, A ⟨N + j.val, by omega⟩ = C j) :
    vmax A = max (vmax B) (vmax C) := by
  subst hM
  apply eq_of_forall_ge_iff
  intro c
  rw [max_le_iff, vmax_le_iff, vmax_le_iff, vmax_le_iff, Fin.forall_fin_add]
  constructor
  · rintro ⟨h1, h2⟩
    exact ⟨fun n => (hB n) ▸ h1 n, fun j => (hC j) ▸ h2 j⟩
  · rintro ⟨h1, h2⟩
    exact ⟨fun n => (hB n).symm ▸ h1 n, fun j => (hC j).symm ▸ h2 j⟩

theorem sum_append (hM : M = N + K) (A : Fin M → EReal) (B : Fin N → EReal) (C : Fin K → EReal)
    (hB : ∀ n : Fin N, A ⟨n.val, by omega⟩ = B n) (hC : ∀ j : Fin K, A ⟨N + j.val, by omega⟩ = C j) (f : EReal → EReal) :
    ∑ m, f (A m) = ∑ n, f (B n) + ∑ j, f (C j) := by
  subst hM
  rw [Fin.sum_univ_add]
  congr 1
  · exact Finset.sum_congr rfl fun n _ => congrArg f (hB n)
  · exact Finset.sum_congr rfl fun j _ => congrArg f (hC j)

theorem sub_sub_eq_sub_add (x m : ℝ) (l : EReal) : ((x : EReal) - (m : EReal)) - l = (x : EReal) - ((m : EReal) + l) := by
  induction l using EReal.rec with
  | bot => rw [← EReal.coe_sub, EReal.coe_sub_bot, EReal.add_bot, EReal.coe_sub_bot]
  | coe r => rw [← EReal.coe_sub, ← EReal.coe_sub, ← EReal.coe_add, ← EReal.coe_sub, sub_sub]
  | top => rw [← EReal.coe_sub, EReal.sub_top, EReal.coe_add_top, EReal.sub_top]

theorem rLsm_append_left (hM : M = N + K) (hpos : 0 < M) (A : Fin M → EReal) (B : Fin N → EReal) (C : Fin K → EReal)
    (hB : ∀ n : Fin N, A ⟨n.val, by omega⟩ = B n) (hC : ∀ j : Fin K, A ⟨N + j.val, by omega⟩ = C j)
    (hA : IsReal A) (n : Fin N) :
    rLsm A ⟨n.val, by omega⟩ = B n - headLogZ B C := by
  have hmax : vmax A = headMax B C := vmax_append hM A B C hB hC
  obtain ⟨m, hm⟩ := vmax_isReal hpos A hA
  obtain ⟨x, hx⟩ := hA ⟨n.val, by omega⟩
  have hsum : vsumexp A (headMax B C) = vsumexp B (headMax B C) + vsumexp C (headMax B C) :=
    sum_append hM A B C hB hC (fun x => Ideal.exp (x - headMax B C))
  rw [hmax] at hm
  rw [hB n] at hx
  unfold rLsm headLogZ
  rw [hmax, hsum, hB n, hx, hm]
  exact sub_sub_eq_sub_add x m _

theorem rLsm_append_right (hM : M = N + K) (hpos : 0 < M) (A : Fin M → EReal) (B : Fin N → EReal) (C : Fin K → EReal)
    (hB : ∀ n : Fin N, A ⟨n.val, by omega⟩ = B n) (hC : ∀ j : Fin K, A ⟨N + j.val, by omega⟩ = C j)
    (hA : IsReal A) (j : Fin K) :
    rLsm A ⟨N + j.val, by omega⟩ = C j - headLogZ B C := by
  have hmax : vmax A = headMax B C := vmax_append hM A B C hB hC
  obtain ⟨m, hm⟩ := vmax_isReal hpos A hA
  obtain ⟨x, hx⟩ := hA ⟨N + j.val, by omega⟩
  have hsum : vsumexp A (headMax B C) = vsumexp B (headMax B C) + vsumexp C (headMax B C) :=
    sum_append hM A B C hB hC (fun x => Ideal.exp (x - headMax B C))
  rw [hmax] at hm
  rw [hC j] at hx
  unfold rLsm headLogZ
  rw [hmax, hsum, hC j, hx, hm]
  exact sub_sub_eq_sub_add x m _

theorem add_rLsm_eq (hN : 0 < N) (L : Fin N → EReal) (hL : IsReal L) (c : EReal) (n : Fin N) :
    c + rLsm L n = (L n - (vmax L + Ideal.log (vsumexp L (vmax L)))) + c := by
  obtain ⟨m, hm⟩ := vmax_isReal hN L hL
  obtain ⟨x, hx⟩ := hL n
  unfold rLsm
  rw [hm, hx, sub_sub_eq_sub_add]
  exact add_comm _ _

end Cert.Spec

end
-- ==== Proof.Model.lean ====
import proofs.«411270_j76149770158357_2_alg».proof.Proof.Spec
import Idealize.ShloMosaic.Lib.ValueIdx

noncomputable section

namespace Cert.Model

open Idealize.ShloMosaic Idealize.ShloMosaic.ValueIdx Cert.Spec

def mat {a b : ℕ} (x : (⟨2, ![a, b]⟩ : Shape).Idx → EReal) : Fin a → Fin b → EReal := fun i j => x (ix2 i j)

def vec {a : ℕ} (x : (⟨1, ![a]⟩ : Shape).Idx → EReal) : Fin a → EReal := fun i => x (ix1 i)

def hflat (x : (⟨3, ![64, 8, 1024]⟩ : Shape).Idx → EReal) : Fin 512 → Fin 1024 → EReal :=
  fun t d => x (ix3 (⟨t.val / 8, by omega⟩ : Fin 64) (⟨t.val % 8, by omega⟩ : Fin 8) d)

def tok (s : Fin 64) (b : Fin 8) : Fin 512 := ⟨8 * s.val + b.val, by omega⟩

theorem hflat_tok (x : (⟨3, ![64, 8, 1024]⟩ : Shape).Idx → EReal) (s : Fin 64) (b : Fin 8) (d : Fin 1024) :
    hflat x (tok s b) d = x (ix3 s b d) := by
  have hb : b.val < 8 := b.isLt
  have h1 : (8 * s.val + b.val) / 8 = s.val := by omega
  have h2 : (8 * s.val + b.val) % 8 = b.val := by omega
  unfold hflat tok
  congr 1
  funext a
  match a with
  | ⟨0, _⟩ => exact Fin.ext h1
  | ⟨1, _⟩ => exact Fin.ext h2
  | ⟨2, _⟩ => rfl

structure Args where
  hidden : (⟨3, ![64, 8, 1024]⟩ : Shape).Idx → EReal
  cw : (⟨2, ![3, 1024]⟩ : Shape).Idx → EReal
  cb : (⟨1, ![3]⟩ : Shape).Idx → EReal
  W0 : (⟨2, ![20000, 1024]⟩ : Shape).Idx → EReal
  b0 : (⟨1, ![20000]⟩ : Shape).Idx → EReal
  P0 : (⟨2, ![1024, 1024]⟩ : Shape).Idx → EReal
  W1 : (⟨2, ![20000, 256]⟩ : Shape).Idx → EReal
  b1 : (⟨1, ![20000]⟩ : Shape).Idx → EReal
  P1 : (⟨2, ![256, 1024]⟩ : Shape).Idx → EReal
  W2 : (⟨2, ![160000, 64]⟩ : Shape).Idx → EReal
  b2 : (⟨1, ![160000]⟩ : Shape).Idx → EReal
  P2 : (⟨2, ![64, 1024]⟩ : Shape).Idx → EReal
  W3 : (⟨2, ![67735, 16]⟩ : Shape).Idx → EReal
  b3 : (⟨1, ![67735]⟩ : Shape).Idx → EReal
  P3 : (⟨2, ![16, 1024]⟩ : Shape).Idx → EReal

variable (A : Args)

def Lw : Fin 512 → Fin 20000 → EReal := logit (hflat A.hidden) (mat A.P0) (mat A.W0) (vec A.b0)
def Lc : Fin 512 → Fin 3 → EReal := logit (hflat A.hidden) (mat A.P0) (mat A.cw) (vec A.cb)
def L1 : Fin 512 → Fin 20000 → EReal := logit (hflat A.hidden) (mat A.P1) (mat A.W1) (vec A.b1)
def L2 : Fin 512 → Fin 160000 → EReal := logit (hflat A.hidden) (mat A.P2) (mat A.W2) (vec A.b2)
def L3 : Fin 512 → Fin 67735 → EReal := logit (hflat A.hidden) (mat A.P3) (mat A.W3) (vec A.b3)

def piece0 (t : Fin 512) (n : Fin 20000) : EReal := kHead (Lw A) (Lc A) t n
def clp (j : Fin 3) (t : Fin 512) : EReal := kClus (Lw A) (Lc A) t j
def piece1 (t : Fin 512) (n : Fin 20000) : EReal := kTail (L1 A) (clp A 0) t n
def piece2 (t : Fin 512) (n : Fin 160000) : EReal := kTail (L2 A) (clp A 1) t n
def piece3 (t : Fin 512) (n : Fin 67735) : EReal := kTail (L3 A) (clp A 2) t n

def outAt (t : Fin 512) (n : Fin 267735) : EReal :=
  if h0 : n.val < 20000 then piece0 A t ⟨n.val, h0⟩
  else if h1 : n.val < 40000 then piece1 A t ⟨n.val - 20000, by omega⟩
  else if h2 : n.val < 200000 then piece2 A t ⟨n.val - 40000, by omega⟩
  else piece3 A t ⟨n.val - 200000, by omega⟩

structure Args.IsReal : Prop where
  hidden : Spec.IsReal A.hidden
  cw : Spec.IsReal A.cw
  cb : Spec.IsReal A.cb
  W0 : Spec.IsReal A.W0
  b0 : Spec.IsReal A.b0
  P0 : Spec.IsReal A.P0
  W1 : Spec.IsReal A.W1
  b1 : Spec.IsReal A.b1
  P1 : Spec.IsReal A.P1
  W2 : Spec.IsReal A.W2
  b2 : Spec.IsReal A.b2
  P2 : Spec.IsReal A.P2
  W3 : Spec.IsReal A.W3
  b3 : Spec.IsReal A.b3
  P3 : Spec.IsReal A.P3

end Cert.Model

end
-- ==== Proof.KI.Args.lean ====
import proofs.«411270_j76149770158357_2_alg».proof.KernelIdeal
import proofs.«411270_j76149770158357_2_alg».proof.Proof.Model

noncomputable section

namespace Cert.KernelIdeal.Val

open Cert.KernelIdeal Idealize.ShloMosaic Idealize.ShloMosaic.TcCoe Idealize.SL.Sem

noncomputable def argsOf (m : (ℓ : Loc nD τ sig) → Buf (Elt Ideal) ℓ) (c : Dev nD) : Cert.Model.Args where
  hidden := m ((c.tc : Thread nD τ).loc main_arg0)
  cw := m ((c.tc : Thread nD τ).loc main_arg2)
  cb := m ((c.tc : Thread nD τ).loc main_arg3)
  W0 := m ((c.tc : Thread nD τ).loc main_arg4)
  b0 := m ((c.tc : Thread nD τ).loc main_arg5)
  P0 := m ((c.tc : Thread nD τ).loc main_arg6)
  W1 := m ((c.tc : Thread nD τ).loc main_arg7)
  b1 := m ((c.tc : Thread nD τ).loc main_arg8)
  P1 := m ((c.tc : Thread nD τ).loc main_arg9)
  W2 := m ((c.tc : Thread nD τ).loc main_arg10)
  b2 := m ((c.tc : Thread nD τ).loc main_arg11)
  P2 := m ((c.tc : Thread nD τ).loc main_arg12)
  W3 := m ((c.tc : Thread nD τ).loc main_arg13)
  b3 := m ((c.tc : Thread nD τ).loc main_arg14)
  P3 := m ((c.tc : Thread nD τ).loc main_arg15)

end Cert.KernelIdeal.Val

end
-- ==== Proof.KI.PayHead.lean ====
import proofs.«411270_j76149770158357_2_alg».proof.Proof.Gen.KernelIdeal.Skeleton
import proofs.«411270_j76149770158357_2_alg».proof.Proof.Model
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.Model Cert.Spec
open Idealize.ShloMosaic Idealize.ShloMosaic.ValueIdx

noncomputable def row0 {n : ℕ} (x : (⟨2, ![1, n]⟩ : Shape).Idx → EReal) : Fin n → EReal := fun j => x (ix2 (0 : Fin 1) j)
noncomputable def col0 {n : ℕ} (x : (⟨2, ![n, 1]⟩ : Shape).Idx → EReal) : Fin n → EReal := fun i => x (ix2 i (0 : Fin 1))

-- Rows of the left operand against rows of the right: the contraction index is its one coordinate.
theorem matmul_rows_apply {a k b : ℕ} {φ₁ φ₂ : FTy} (D : DotDims ⟨2, ![a, k]⟩ ⟨2, ![b, k]⟩ ⟨2, ![a, b]⟩)
    (hD : D = DotDims.transposedRhs a k b) (x : FVec Ideal ⟨2, ![a, k]⟩ φ₁) (y : FVec Ideal ⟨2, ![b, k]⟩ φ₂)
    (r : Fin a) (n : Fin b) :
    matmul D none x y (constant (F := Ideal) ⟨2, ![a, b]⟩ .f32 0x00000000#32) (ix2 r n)
      = ∑ d : Fin k, x (ix2 r d) * y (ix2 n d) := by
  subst hD
  refine (Ideal.matmul_constant_zero_apply _ none x y (ix2 r n)).trans ?_
  rw [← Equiv.sum_comp (contrEquiv1 (DotDims.transposedRhs a k b) k rfl rfl).symm]
  refine Finset.sum_congr rfl fun d _ => ?_
  have hd := contrEquiv1_symm_val (DotDims.transposedRhs a k b) k rfl rfl d
  have el : (DotDims.transposedRhs a k b).lhsIdx (ix2 r n) ((contrEquiv1 (DotDims.transposedRhs a k b) k rfl rfl).symm d)
      = ix2 r d := funext fun c => Fin.ext (by
    match c with
    | ⟨0, _⟩ => rfl
    | ⟨1, _⟩ => exact hd)
  have er : (DotDims.transposedRhs a k b).rhsIdx (ix2 r n) ((contrEquiv1 (DotDims.transposedRhs a k b) k rfl rfl).symm d)
      = ix2 n d := funext fun c => Fin.ext (by
    match c with
    | ⟨0, _⟩ => rfl
    | ⟨1, _⟩ => exact hd)
  rw [el, er]

-- A logit: the projected token row against a word's weight row, plus the word's bias.
theorem logits_apply {a k e n : ℕ} (D₁ : DotDims ⟨2, ![a, k]⟩ ⟨2, ![e, k]⟩ ⟨2, ![a, e]⟩) (h₁ : D₁ = DotDims.transposedRhs a k e)
    (D₂ : DotDims ⟨2, ![a, e]⟩ ⟨2, ![n, e]⟩ ⟨2, ![a, n]⟩) (h₂ : D₂ = DotDims.transposedRhs a e n)
    (x0 : FVec Ideal ⟨2, ![a, k]⟩ .bf16) (x1 : FVec Ideal ⟨2, ![e, k]⟩ .bf16) (x2 : FVec Ideal ⟨2, ![n, e]⟩ .bf16)
    (x3 : FVec Ideal ⟨2, ![1, n]⟩ .f32) (c0 : (⟨2, ![a, k]⟩ : Shape).ShapeCasts ⟨2, ![a, k]⟩)
    (c1 : (⟨2, ![e, k]⟩ : Shape).ShapeCasts ⟨2, ![e, k]⟩) (c2 : (⟨2, ![n, e]⟩ : Shape).ShapeCasts ⟨2, ![n, e]⟩)
    (c3 : (⟨2, ![1, n]⟩ : Shape).ShapeCasts ⟨2, ![1, n]⟩) (hb : (⟨2, ![1, n]⟩ : Shape).Broadcasts ⟨2, ![a, n]⟩)
    (ht : FTy.bf16.bits < FTy.f32.bits) (r : Fin a) (m : Fin n) :
    addf (matmul D₂ none
          (truncf .bf16 (matmul D₁ none (shapeCast ⟨2, ![a, k]⟩ x0 c0) (shapeCast ⟨2, ![e, k]⟩ x1 c1)
            (constant (F := Ideal) ⟨2, ![a, e]⟩ .f32 0x00000000#32)) ht)
          (shapeCast ⟨2, ![n, e]⟩ x2 c2) (constant (F := Ideal) ⟨2, ![a, n]⟩ .f32 0x00000000#32))
        (broadcastTo ⟨2, ![a, n]⟩ (shapeCast ⟨2, ![1, n]⟩ x3 c3) hb) (ix2 r m)
      = logit (mat x0) (mat x1) (mat x2) (row0 x3) r m := by
  rw [shapeCast_self, shapeCast_self, shapeCast_self, shapeCast_self, addf_apply, matmul_rows_apply D₂ h₂, broadcastTo_1b_ab_apply]
  unfold logit proj mat row0
  congr 1
  refine Finset.sum_congr rfl fun j _ => ?_
  rw [truncf_apply, matmul_rows_apply D₁ h₁]

theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

theorem ofBits_negInf_f32 : Ideal.ofBits .f32 0xFF800000#32 = ⊥ := by simp [Ideal.ofBits, Ideal.ieee]

-- Both shapes list the same elements in the same row-major order.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- Only the unit axis is spread; the row coordinate is kept.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A row's lane maximum from -∞, kept as a column, is the row's maximum.
theorem colMax_apply {a b : ℕ} (L : FVec Ideal ⟨2, ![a, b]⟩ .f32) (hr : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (r : Fin a) (u : Fin 1) :
    shapeCast ⟨2, ![a, 1]⟩ (multiReduction .maximumf [1] ⟨1, ![a]⟩ L 0xFF800000#32 hr hφ hacc) hc (ix2 r u)
      = vmax (fun n : Fin b => L (ix2 r n)) := by
  rw [shapeCast_a_a1_apply]
  refine (Ideal.multiReduction_maximumf_single L 0xFF800000#32 hr hφ hacc (ix1 r)).trans ?_
  show (Finset.univ : Finset (Fin b)).fold max (Ideal.ofBits .f32 0xFF800000#32) (fun k : Fin b => L (hr.lift (ix1 r) k)) = _
  rw [ofBits_negInf_f32]
  refine Finset.fold_congr fun k _ => congrArg L (funext fun c => ?_)
  match c with
  | ⟨0, _⟩ => rfl
  | ⟨1, _⟩ => rfl

-- A row's lane sum of the exponentials shifted by a column, kept as a column, is the row's sum of shifted exponentials.
theorem colSumExp_apply {a b : ℕ} (L : FVec Ideal ⟨2, ![a, b]⟩ .f32) (M : FVec Ideal ⟨2, ![a, 1]⟩ .f32)
    (hb : (⟨2, ![a, 1]⟩ : Shape).Broadcasts ⟨2, ![a, b]⟩) (hr : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (r : Fin a) (u : Fin 1) :
    shapeCast ⟨2, ![a, 1]⟩ (multiReduction .add [1] ⟨1, ![a]⟩ (exp (subf L (broadcastTo ⟨2, ![a, b]⟩ M hb)))
        0x00000000#32 hr hφ hacc) hc (ix2 r u)
      = vsumexp (fun n : Fin b => L (ix2 r n)) (M (ix2 r (0 : Fin 1))) := by
  rw [shapeCast_a_a1_apply]
  refine (Ideal.multiReduction_add_single _ 0x00000000#32 hr hφ hacc (ix1 r)).trans (Finset.sum_congr rfl fun (k : Fin b) _ => ?_)
  have hk : hr.lift (ix1 r) k = ix2 r k := funext fun c => by
    match c with
    | ⟨0, _⟩ => rfl
    | ⟨1, _⟩ => rfl
  show exp (subf L (broadcastTo ⟨2, ![a, b]⟩ M hb)) (hr.lift (ix1 r) k) = _
  rw [hk, exp_apply, subf_apply, broadcastTo_a1_ab_apply]

-- A row's log-softmax plus a column's entry, the row's logits known as `Lg r`.
theorem rows_lse_apply {a b : ℕ} (L : FVec Ideal ⟨2, ![a, b]⟩ .f32) (c : FVec Ideal ⟨2, ![a, 1]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = 0xFF800000#32) (hadd : (0x00000000#32 : BitVec 32) = 0x00000000#32)
    (h4 : (⟨2, ![a, 1]⟩ : Shape).ShapeCasts ⟨2, ![a, 1]⟩) (Lg : Fin a → Fin b → EReal) (r : Fin a)
    (hL : ∀ m, L (ix2 r m) = Lg r m) (n : Fin b) :
    addf (subf L (broadcastTo ⟨2, ![a, b]⟩
        (addf (shapeCast ⟨2, ![a, 1]⟩ (multiReduction .maximumf [1] ⟨1, ![a]⟩ L 0xFF800000#32 hr hφ hmax) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L 0xFF800000#32 hr hφ hmax) hc) hb)))
            0x00000000#32 hr hφ hadd) hc))) hb))
      (broadcastTo ⟨2, ![a, b]⟩ (shapeCast ⟨2, ![a, 1]⟩ c h4) hb) (ix2 r n)
    = kTail Lg (col0 c) r n := by
  rw [addf_apply, subf_apply, broadcastTo_a1_ab_apply, broadcastTo_a1_ab_apply, addf_apply, log_apply, colSumExp_apply,
    colMax_apply, shapeCast_self, funext hL, hL n]
  rfl

theorem pay3_apply (x0 : Vec Ideal S8x1024 .bf16) (x1 : Vec Ideal S1024x1024 .bf16) (x2 : Vec Ideal S20000x1024 .bf16)
    (x3 : Vec Ideal S1x20000 .f32) (r : Fin 8) (n : Fin 20000) :
    (k0_pay3 (F := Ideal) x0 x1 x2 x3 : S8x20000.Idx → EReal) (ix2 r n) = logit (mat x0) (mat x1) (mat x2) (row0 x3) r n := by
  unfold k0_pay3 k0_pay2
  exact logits_apply dot_S8x1024_S1024x1024_S8x1024_1_1_0_0_n_n rfl dot_S8x1024_S20000x1024_S8x20000_1_1_0_0_n_n rfl
    x0 x1 x2 x3 _ _ _ _ _ _ r n

theorem pay4_apply (x0 : Vec Ideal S8x1024 .bf16) (x1 : Vec Ideal S1024x1024 .bf16) (x4 : Vec Ideal S3x1024 .bf16)
    (x5 : Vec Ideal S1x3 .f32) (r : Fin 8) (j : Fin 3) :
    (k0_pay4 (F := Ideal) x0 x1 x4 x5 : S8x3.Idx → EReal) (ix2 r j) = logit (mat x0) (mat x1) (mat x4) (row0 x5) r j := by
  unfold k0_pay4 k0_pay2
  exact logits_apply dot_S8x1024_S1024x1024_S8x1024_1_1_0_0_n_n rfl dot_S8x1024_S3x1024_S8x3_1_1_0_0_n_n rfl
    x0 x1 x4 x5 _ _ _ _ _ _ r j

-- The joint log-sum-exp of a row's word logits and cluster-row logits, kept as a column.
theorem pay5_apply (x0 : Vec Ideal S8x1024 .bf16) (x1 : Vec Ideal S1024x1024 .bf16) (x2 : Vec Ideal S20000x1024 .bf16)
    (x3 : Vec Ideal S1x20000 .f32) (x4 : Vec Ideal S3x1024 .bf16) (x5 : Vec Ideal S1x3 .f32) (r : Fin 8) :
    (k0_pay5 (F := Ideal) x0 x1 x2 x3 x4 x5 : S8x1.Idx → EReal) (ix2 r (0 : Fin 1))
      = headLogZ (logit (mat x0) (mat x1) (mat x2) (row0 x3) r) (logit (mat x0) (mat x1) (mat x4) (row0 x5) r) := by
  rw [← funext (pay3_apply x0 x1 x2 x3 r), ← funext (pay4_apply x0 x1 x4 x5 r)]
  unfold k0_pay5
  dsimp only
  rw [addf_apply, log_apply, addf_apply, colSumExp_apply, colSumExp_apply, maximumf_apply, colMax_apply, colMax_apply]
  rfl

theorem pay_words (x0 : Vec Ideal S8x1024 .bf16) (x1 : Vec Ideal S1024x1024 .bf16) (x2 : Vec Ideal S20000x1024 .bf16)
    (x3 : Vec Ideal S1x20000 .f32) (x4 : Vec Ideal S3x1024 .bf16) (x5 : Vec Ideal S1x3 .f32) (r : Fin 8) (n : Fin 20000) :
    (k0_pay6 (F := Ideal) x0 x1 x2 x3 x4 x5 : S8x20000.Idx → EReal) (ix2 r n)
      = kHead (logit (mat x0) (mat x1) (mat x2) (row0 x3)) (logit (mat x0) (mat x1) (mat x4) (row0 x5)) r n := by
  unfold k0_pay6
  rw [subf_apply, broadcastTo_a1_ab_apply, pay3_apply, pay5_apply]
  rfl

theorem pay_clus (x0 : Vec Ideal S8x1024 .bf16) (x1 : Vec Ideal S1024x1024 .bf16) (x2 : Vec Ideal S20000x1024 .bf16)
    (x3 : Vec Ideal S1x20000 .f32) (x4 : Vec Ideal S3x1024 .bf16) (x5 : Vec Ideal S1x3 .f32) (r : Fin 8) (j : Fin 3) :
    (k0_pay1 (F := Ideal) (k0_pay4 x0 x1 x4 x5) (k0_pay5 x0 x1 x2 x3 x4 x5) : S8x3.Idx → EReal) (ix2 r j)
      = kClus (logit (mat x0) (mat x1) (mat x2) (row0 x3)) (logit (mat x0) (mat x1) (mat x4) (row0 x5)) r j := by
  unfold k0_pay1
  rw [subf_apply, broadcastTo_a1_ab_apply, pay4_apply, pay5_apply]
  rfl

end Cert.KernelIdeal.Val

end
-- ==== Proof.KI.ValHead.lean ====
import proofs.«411270_j76149770158357_2_alg».proof.Proof.KI.Run
import proofs.«411270_j76149770158357_2_alg».proof.Proof.KI.Args
import proofs.«411270_j76149770158357_2_alg».proof.Proof.KI.PayHead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Cert.Model Cert.Spec
open Idealize.ShloMosaic Idealize.ShloMosaic.TcCoe Idealize.ShloMosaic.ValueIdx Idealize.SL.Sem

variable (m : (ℓ : Loc nD τ sig) → Buf (Elt Ideal) ℓ) (c : Dev nD)

namespace Head

theorem hz : (![0, 0] : Fin 2 → Nat) = fun _ => 0 := funext fun a => by match a with | ⟨0, _⟩ => rfl | ⟨1, _⟩ => rfl

-- Token `t` and the hidden state at position `t / 8`, batch row `t % 8` have the same row-major position.
theorem ent_tok_apply (t : Fin 512) (d : Fin 1024) :
    (ent0 (F := Ideal) m c main_v1 : S512x1024.Idx → EReal) (ix2 t d) = hflat (argsOf m c).hidden t d := by
  show (StableHlo.after hostOps0 (fun b => m (c, b)) (Proc.devRef .tc main_v1) : S512x1024.Idx → EReal) (ix2 t d) = _
  after_results
  refine (shapeCast_apply _ _ (ix2 t d) (ix3 (⟨t.val / 8, by omega⟩ : Fin 64) (⟨t.val % 8, by omega⟩ : Fin 8) d) ?_).trans rfl
  rw [Shape.rowMajor_val_three, Shape.rowMajor_val_two]
  show ((t.val / 8) * 8 + t.val % 8) * 1024 + d.val = t.val * 1024 + d.val
  omega

-- The entry weight arrays are the arguments; the entry bias rows are the arguments laid as one row.
theorem ent_args : (ent0 (F := Ideal) m c main_v2 : S1024x1024.Idx → EReal) = (argsOf m c).P0
    ∧ (ent0 (F := Ideal) m c main_v3 : S20000x1024.Idx → EReal) = (argsOf m c).W0
    ∧ (ent0 (F := Ideal) m c main_v5 : S3x1024.Idx → EReal) = (argsOf m c).cw
    ∧ (∀ n, (ent0 (F := Ideal) m c main_v4 : S1x20000.Idx → EReal) (ix2 (0 : Fin 1) n) = (argsOf m c).b0 (ix1 n))
    ∧ ∀ n, (ent0 (F := Ideal) m c main_v6 : S1x3.Idx → EReal) (ix2 (0 : Fin 1) n) = (argsOf m c).cb (ix1 n) := by
  refine ⟨?_, ?_, ?_, fun n => ?_, fun n => ?_⟩
  · show StableHlo.after hostOps0 (fun b => m (c, b)) (Proc.devRef .tc main_v2) = _
    after_results; rfl
  · show StableHlo.after hostOps0 (fun b => m (c, b)) (Proc.devRef .tc main_v3) = _
    after_results; rfl
  · show StableHlo.after hostOps0 (fun b => m (c, b)) (Proc.devRef .tc main_v5) = _
    after_results; rfl
  · show (StableHlo.after hostOps0 (fun b => m (c, b)) (Proc.devRef .tc main_v4) : S1x20000.Idx → EReal) (ix2 (0 : Fin 1) n) = _
    after_results
    exact shapeCast_a_1a_apply _ _ 0 n
  · show (StableHlo.after hostOps0 (fun b => m (c, b)) (Proc.devRef .tc main_v6) : S1x3.Idx → EReal) (ix2 (0 : Fin 1) n) = _
    after_results
    exact shapeCast_a_1a_apply _ _ 0 n

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

-- A block of the array's own size at index 0 on both axes is the whole array.
theorem blk_proj (t : Fin cfg0.N) : (iblk0 (ent0 m) c 1 t : Vec Ideal S1024x1024 .bf16) = (argsOf m c).P0 :=
  (funext fun y => congrArg (ent0 m c main_v2) (Shape.idx_ext₂ (win0_1.rect_emb_val_of_index_zero t 0 (congrFun (idx t).2.1 0) y)
    (win0_1.rect_emb_val_of_index_zero t 1 (congrFun (idx t).2.1 1) y))).trans (ent_args m c).1

theorem blk_wordw (t : Fin cfg0.N) : (iblk0 (ent0 m) c 2 t : Vec Ideal S20000x1024 .bf16) = (argsOf m c).W0 :=
  (funext fun y => congrArg (ent0 m c main_v3) (Shape.idx_ext₂ (win0_2.rect_emb_val_of_index_zero t 0 (congrFun (idx t).2.2.1 0) y)
    (win0_2.rect_emb_val_of_index_zero t 1 (congrFun (idx t).2.2.1 1) y))).trans (ent_args m c).2.1

theorem blk_wordb (t : Fin cfg0.N) : row0 (iblk0 (ent0 m) c 3 t : Vec Ideal S1x20000 .f32) = vec (argsOf m c).b0 :=
  funext fun n => (congrArg (ent0 m c main_v4) (Shape.idx_ext₂ (win0_3.rect_emb_val_of_index_zero t 0 (congrFun (idx t).2.2.2.1 0) _)
    (win0_3.rect_emb_val_of_index_zero t 1 (congrFun (idx t).2.2.2.1 1) _))).trans ((ent_args m c).2.2.2.1 n)

theorem blk_clusw (t : Fin cfg0.N) : (iblk0 (ent0 m) c 4 t : Vec Ideal S3x1024 .bf16) = (argsOf m c).cw :=
  (funext fun y => congrArg (ent0 m c main_v5) (Shape.idx_ext₂ (win0_4.rect_emb_val_of_index_zero t 0 (congrFun (idx t).2.2.2.2.1 0) y)
    (win0_4.rect_emb_val_of_index_zero t 1 (congrFun (idx t).2.2.2.2.1 1) y))).trans (ent_args m c).2.2.1

theorem blk_clusb (t : Fin cfg0.N) : row0 (iblk0 (ent0 m) c 5 t : Vec Ideal S1x3 .f32) = vec (argsOf m c).cb :=
  funext fun n => (congrArg (ent0 m c main_v6) (Shape.idx_ext₂ (win0_5.rect_emb_val_of_index_zero t 0 (congrFun (idx t).2.2.2.2.2.1 0) _)
    (win0_5.rect_emb_val_of_index_zero t 1 (congrFun (idx t).2.2.2.2.2.1 1) _))).trans ((ent_args m c).2.2.2.2 n)

-- Row `r` of block `t` along the rows is row `8 * t + r` of the array.
theorem blk_tokens (t : Fin cfg0.N) (r : Fin 8) (T : Fin 512) (hT : T.val = 8 * t.val + r.val) :
    mat (iblk0 (ent0 m) c 0 t : Vec Ideal S8x1024 .bf16) r = hflat (argsOf m c).hidden T :=
  funext fun d => (congrArg (ent0 m c main_v1) (Shape.idx_ext₂
    ((win0_0.rect_emb_val t (ix2 r d) 0).trans (by rw [(idx t).1, hT]; show t.val * 8 + r.val = _; omega))
    (win0_0.rect_emb_val_of_index_zero t 1 (congrFun (idx t).1 1) _))).trans (ent_tok_apply m c T d)

-- A row's two logit rows at point `t` are the model's at row `8 * t + r`.
theorem blk_logits (t : Fin cfg0.N) (r : Fin 8) (T : Fin 512) (hT : T.val = 8 * t.val + r.val) :
    logit (mat (iblk0 (ent0 m) c 0 t : Vec Ideal S8x1024 .bf16)) (mat (iblk0 (ent0 m) c 1 t : Vec Ideal S1024x1024 .bf16))
        (mat (iblk0 (ent0 m) c 2 t : Vec Ideal S20000x1024 .bf16)) (row0 (iblk0 (ent0 m) c 3 t : Vec Ideal S1x20000 .f32)) r = Lw (argsOf m c) T
    ∧ logit (mat (iblk0 (ent0 m) c 0 t : Vec Ideal S8x1024 .bf16)) (mat (iblk0 (ent0 m) c 1 t : Vec Ideal S1024x1024 .bf16))
        (mat (iblk0 (ent0 m) c 4 t : Vec Ideal S3x1024 .bf16)) (row0 (iblk0 (ent0 m) c 5 t : Vec Ideal S1x3 .f32)) r = Lc (argsOf m c) T := by
  rw [blk_proj, blk_wordw, blk_wordb, blk_clusw, blk_clusb]
  exact ⟨logit_congr_row _ _ _ _ _ r T (blk_tokens m c t r T hT), logit_congr_row _ _ _ _ _ r T (blk_tokens m c t r T hT)⟩

-- Each entry of point `t`'s block is the model's value at its place in the array.
theorem flushed_words (t : Fin cfg0.N) : (dat0 (ent0 m) c).flushed 6 t
    = ((cfg0.win 6).blk t).view.read (Elt Ideal) fun i : S512x20000.Idx => piece0 (argsOf m c) (i 0) (i 1) := by
  show (cfg0.win 6).cut (grid0.coords t) ((dat0 (ent0 m) c).after 6 t) = _
  rw [after0_6]
  unfold out0_6
  rw [View.canon_unit_zero hz]
  simp only [View.ld_unit_zero (S := S8x1024) hz, View.ld_unit_zero (S := S1024x1024) hz, View.ld_unit_zero (S := S20000x1024) hz,
    View.ld_unit_zero (S := S1x20000) hz, View.ld_unit_zero (S := S3x1024) hz, View.ld_unit_zero (S := S1x3) hz]
  funext j
  obtain ⟨r, n, rfl⟩ : ∃ (r : Fin 8) (n : Fin 20000), j = ix2 r n := ⟨j 0, j 1, eq_ix2 j⟩
  have hT : ((win0_6.rect t).emb (ix2 r n) 0 : ℕ) = 8 * t.val + r.val :=
    (win0_6.rect_emb_val t (ix2 r n) 0).trans (by rw [(idx t).2.2.2.2.2.2.1]; show t.val * 8 + r.val = _; omega)
  exact ((pay_words _ _ _ _ _ _ r n).trans (kHead_congr_row _ _ _ _ r _ (blk_logits m c t r _ hT).1 (blk_logits m c t r _ hT).2 n)).trans
    (congrArg (piece0 _ _) (Fin.ext (win0_6.rect_emb_val_of_index_zero t 1 (congrFun (idx t).2.2.2.2.2.2.1 1) (ix2 r n)).symm))

theorem flushed_clus (t : Fin cfg0.N) : (dat0 (ent0 m) c).flushed 7 t
    = ((cfg0.win 7).blk t).view.read (Elt Ideal) fun i : S512x3.Idx => clp (argsOf m c) (i 1) (i 0) := by
  show (cfg0.win 7).cut (grid0.coords t) ((dat0 (ent0 m) c).after 7 t) = _
  rw [after0_7]
  unfold out0_7
  rw [View.canon_unit_zero hz]
  simp only [View.ld_unit_zero (S := S8x1024) hz, View.ld_unit_zero (S := S1024x1024) hz, View.ld_unit_zero (S := S20000x1024) hz,
    View.ld_unit_zero (S := S1x20000) hz, View.ld_unit_zero (S := S3x1024) hz, View.ld_unit_zero (S := S1x3) hz]
  funext j
  obtain ⟨r, k, rfl⟩ : ∃ (r : Fin 8) (k : Fin 3), j = ix2 r k := ⟨j 0, j 1, eq_ix2 j⟩
  have hT : ((win0_7.rect t).emb (ix2 r k) 0 : ℕ) = 8 * t.val + r.val :=
    (win0_7.rect_emb_val t (ix2 r k) 0).trans (by rw [(idx t).2.2.2.2.2.2.2]; show t.val * 8 + r.val = _; omega)
  exact ((pay_clus _ _ _ _ _ _ r k).trans (kClus_congr_row _ _ _ _ r _ (blk_logits m c t r _ hT).1 (blk_logits m c t r _ hT).2 k)).trans
    (congrArg (clp _ · _) (Fin.ext (win0_7.rect_emb_val_of_index_zero t 1 (congrFun (idx t).2.2.2.2.2.2.2 1) (ix2 r k)).symm))

-- Row `i` lies in the block of point `i / 8`.
theorem cover_words (i : S512x20000.Idx) : ∃ t : Fin cfg0.N, (cfg0.win 6).flush t = true ∧ i ∈ ((cfg0.win 6).blk t).view.set := by
  have h0 := idx2_lt0 i
  obtain ⟨t, ht⟩ : ∃ t : Fin cfg0.N, t.val = (i 0).val / 8 := ⟨⟨(i 0).val / 8, by show _ < grid0.N; rw [N_0]; omega⟩, rfl⟩
  refine ⟨t, flush0_6 t, ?_⟩
  show i ∈ ((View.whole main_v7_0).slice (win0_6.rect t)).set
  rw [View.set_slice_whole, Rect.mem_set_unit, (idx t).2.2.2.2.2.2.1]
  intro a
  match a with
  | ⟨0, _⟩ => show t.val * 8 ≤ (i 0).val ∧ (i 0).val < t.val * 8 + 8; omega
  | ⟨1, _⟩ => show 0 * 20000 ≤ (i 1).val ∧ (i 1).val < 0 * 20000 + 20000; have := idx2_lt1 i; omega

theorem cover_clus (i : S512x3.Idx) : ∃ t : Fin cfg0.N, (cfg0.win 7).flush t = true ∧ i ∈ ((cfg0.win 7).blk t).view.set := by
  have h0 := idx2_lt0 i
  obtain ⟨t, ht⟩ : ∃ t : Fin cfg0.N, t.val = (i 0).val / 8 := ⟨⟨(i 0).val / 8, by show _ < grid0.N; rw [N_0]; omega⟩, rfl⟩
  refine ⟨t, flush0_7 t, ?_⟩
  show i ∈ ((View.whole main_v7_1).slice (win0_7.rect t)).set
  rw [View.set_slice_whole, Rect.mem_set_unit, (idx t).2.2.2.2.2.2.2]
  intro a
  match a with
  | ⟨0, _⟩ => show t.val * 8 ≤ (i 0).val ∧ (i 0).val < t.val * 8 + 8; omega
  | ⟨1, _⟩ => show 0 * 3 ≤ (i 1).val ∧ (i 1).val < 0 * 3 + 3; have := idx2_lt1 i; omega

end Head

theorem head_words (t : Fin 512) (n : Fin 20000) :
    (W2 (F := Ideal) m c (Proc.devRef .tc main_v7_0) : S512x20000.Idx → EReal) (ix2 t n) = piece0 (argsOf m c) t n :=
  congrFun ((W2_arr m c 6).trans ((dat0 (ent0 m) c).arrAt_eq_of_cover 6 _ (fun t _ => Head.flushed_words m c t) Head.cover_words)) (ix2 t n)

theorem head_clus (t : Fin 512) (j : Fin 3) :
    (W2 (F := Ideal) m c (Proc.devRef .tc main_v7_1) : S512x3.Idx → EReal) (ix2 t j) = clp (argsOf m c) j t :=
  congrFun ((W2_arr m c 7).trans ((dat0 (ent0 m) c).arrAt_eq_of_cover 7 _ (fun t _ => Head.flushed_clus m c t) Head.cover_clus)) (ix2 t j)

end Cert.KernelIdeal.Val

end
-- ==== Proof.KI.Kept.lean ====
import proofs.«411270_j76149770158357_2_alg».proof.Proof.KI.Run

set_option maxRecDepth 16384

noncomputable section

namespace Cert.KernelIdeal.Frm

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

-- The token rows are an input window of every region and no later stretch writes them.
theorem W2_tokens (c : Dev nD) : W2 m c (Proc.devRef .tc main_v1) = W1 m c (Proc.devRef .tc main_v1) :=
  (W2_arr m c 0).trans (((dat0 (ent0 m) c).arrAt_in 0 rfl _).trans (A_eq0 (ent0 m) c 0))
theorem W3_tokens (c : Dev nD) : W3 m c (Proc.devRef .tc main_v1) = W1 m c (Proc.devRef .tc main_v1) :=
  (StableHlo.after_of_writes_sub hostOps1 _ hostOps1_writes (by decide)).trans (W2_tokens m c)
theorem W4_tokens (c : Dev nD) : W4 m c (Proc.devRef .tc main_v1) = W1 m c (Proc.devRef .tc main_v1) :=
  (W4_arr m c 0).trans (((dat1 (ent1 m) c).arrAt_in 0 rfl _).trans ((A_eq1 (ent1 m) c 0).trans (W3_tokens m c)))
theorem W5_tokens (c : Dev nD) : W5 m c (Proc.devRef .tc main_v1) = W1 m c (Proc.devRef .tc main_v1) :=
  (StableHlo.after_of_writes_sub hostOps2 _ hostOps2_writes (by decide)).trans (W4_tokens m c)
theorem W6_tokens (c : Dev nD) : W6 m c (Proc.devRef .tc main_v1) = W1 m c (Proc.devRef .tc main_v1) :=
  (W6_arr m c 0).trans (((dat2 (ent2 m) c).arrAt_in 0 rfl _).trans ((A_eq2 (ent2 m) c 0).trans (W5_tokens m c)))
theorem W7_tokens (c : Dev nD) : W7 m c (Proc.devRef .tc main_v1) = W1 m c (Proc.devRef .tc main_v1) :=
  (StableHlo.after_of_writes_sub hostOps3 _ hostOps3_writes (by decide)).trans (W6_tokens m c)

theorem W2_clus (c : Dev nD) : W2 m c (Proc.devRef .tc main_v7_1) = W2 m c (Proc.devRef .tc main_v7_1) := rfl
theorem W3_clus (c : Dev nD) : W3 m c (Proc.devRef .tc main_v7_1) = W2 m c (Proc.devRef .tc main_v7_1) :=
  StableHlo.after_of_writes_sub hostOps1 _ hostOps1_writes (by decide)
theorem W4_clus (c : Dev nD) : W4 m c (Proc.devRef .tc main_v7_1) = W2 m c (Proc.devRef .tc main_v7_1) :=
  (W4_of_ne m c main_v7_1 (by decide)).trans (W3_clus m c)
theorem W5_clus (c : Dev nD) : W5 m c (Proc.devRef .tc main_v7_1) = W2 m c (Proc.devRef .tc main_v7_1) :=
  (StableHlo.after_of_writes_sub hostOps2 _ hostOps2_writes (by decide)).trans (W4_clus m c)
theorem W6_clus (c : Dev nD) : W6 m c (Proc.devRef .tc main_v7_1) = W2 m c (Proc.devRef .tc main_v7_1) :=
  (W6_of_ne m c main_v7_1 (by decide)).trans (W5_clus m c)

-- No stretch writes an argument and no region's window names one: it holds its launch contents at every boundary.
theorem W2_of (c : Dev nD) (r : Ref sig .tc) (hr : r ∈ argRefs) : W2 m c (Proc.devRef .tc r) = m ((c : Thread nD τ).loc r) :=
  (W2_of_ne m c r (by revert r; decide)).trans (StableHlo.after_of_writes_sub hostOps0 _ hostOps0_writes (by revert r; decide))
theorem W4_of (c : Dev nD) (r : Ref sig .tc) (hr : r ∈ argRefs) : W4 m c (Proc.devRef .tc r) = m ((c : Thread nD τ).loc r) :=
  (W4_of_ne m c r (by revert r; decide)).trans
    ((StableHlo.after_of_writes_sub hostOps1 _ hostOps1_writes (by revert r; decide)).trans (W2_of m c r hr))
theorem W6_of (c : Dev nD) (r : Ref sig .tc) (hr : r ∈ argRefs) : W6 m c (Proc.devRef .tc r) = m ((c : Thread nD τ).loc r) :=
  (W6_of_ne m c r (by revert r; decide)).trans
    ((StableHlo.after_of_writes_sub hostOps2 _ hostOps2_writes (by revert r; decide)).trans (W4_of m c r hr))

end Cert.KernelIdeal.Frm

end
-- ==== Proof.KI.PayTail1.lean ====
import proofs.«411270_j76149770158357_2_alg».proof.Proof.Gen.KernelIdeal.Skeleton
import proofs.«411270_j76149770158357_2_alg».proof.Proof.Model
import proofs.«411270_j76149770158357_2_alg».proof.Proof.KI.PayHead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.Model Cert.Spec
open Idealize.ShloMosaic Idealize.ShloMosaic.ValueIdx

-- The store holds the word's logit minus the row's log-sum-exp, plus the row's cluster log-probability.
theorem pay_tail1 (x0 : Vec Ideal S64x1024 .bf16) (x1 : Vec Ideal S256x1024 .bf16) (x2 : Vec Ideal S20000x256 .bf16)
    (x3 : Vec Ideal S1x20000 .f32) (x4 : Vec Ideal S64x1 .f32) (r : Fin 64) (n : Fin 20000) :
    (k1_pay1 (F := Ideal) x0 x1 x2 x3 x4 : S64x20000.Idx → EReal) (ix2 r n)
      = kTail (logit (mat x0) (mat x1) (mat x2) (row0 x3)) (col0 x4) r n := by
  unfold k1_pay1
  exact rows_lse_apply _ _ _ _ _ _ _ _ _ _ r (logits_apply dot_S64x1024_S256x1024_S64x256_1_1_0_0_n_n rfl
    dot_S64x256_S20000x256_S64x20000_1_1_0_0_n_n rfl x0 x1 x2 x3 _ _ _ _ _ _ r) n

end Cert.KernelIdeal.Val

end
-- ==== Proof.KI.ValTail1.lean ====
import proofs.«411270_j76149770158357_2_alg».proof.Proof.KI.Run
import proofs.«411270_j76149770158357_2_alg».proof.Proof.KI.Kept
import proofs.«411270_j76149770158357_2_alg».proof.Proof.KI.Args
import proofs.«411270_j76149770158357_2_alg».proof.Proof.KI.ValHead
import proofs.«411270_j76149770158357_2_alg».proof.Proof.KI.PayTail1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Cert.Model Cert.Spec
open Idealize.ShloMosaic Idealize.ShloMosaic.TcCoe Idealize.ShloMosaic.ValueIdx Idealize.SL.Sem

variable (m : (ℓ : Loc nD τ sig) → Buf (Elt Ideal) ℓ) (c : Dev nD)

namespace Tail1Out

theorem idx : ∀ t : Fin cfg1.N, win1_0.index t = ![t.val, 0] ∧ win1_1.index t = (fun _ => 0) ∧ win1_2.index t = (fun _ => 0)
    ∧ win1_3.index t = (fun _ => 0) ∧ win1_4.index t = ![t.val, 0] ∧ win1_5.index t = ![t.val, 0] :=
  (by decide +kernel : ∀ t : Fin grid1.N, _)

-- At block index 0 on every axis, with the array's own size, the block is the whole array.
theorem blk_proj (t : Fin cfg1.N) : (iblk1 (ent1 m) c 1 t : Vec Ideal S256x1024 .bf16) = m ((c.tc : Thread nD τ).loc main_arg9) := by
  refine (funext fun y => congrArg (ent1 m c main_v8) (funext fun a => Fin.ext
    (win1_1.rect_emb_val_of_index_zero t a (congrFun (idx t).2.1 a) y))).trans ?_
  show (StableHlo.after hostOps1 (W2 m c) (Proc.devRef .tc main_v8) : S256x1024.Idx → EReal) = _
  after_results
  exact W2_of m c main_arg9 (by decide)

theorem blk_weight (t : Fin cfg1.N) : (iblk1 (ent1 m) c 2 t : Vec Ideal S20000x256 .bf16) = m ((c.tc : Thread nD τ).loc main_arg7) := by
  refine (funext fun y => congrArg (ent1 m c main_v9) (funext fun a => Fin.ext
    (win1_2.rect_emb_val_of_index_zero t a (congrFun (idx t).2.2.1 a) y))).trans ?_
  show (StableHlo.after hostOps1 (W2 m c) (Proc.devRef .tc main_v9) : S20000x256.Idx → EReal) = _
  after_results
  exact W2_of m c main_arg7 (by decide)

theorem blk_bias (t : Fin cfg1.N) : row0 (iblk1 (ent1 m) c 3 t : Vec Ideal S1x20000 .f32) = vec (m ((c.tc : Thread nD τ).loc main_arg8)) := by
  funext n
  refine (congrArg (ent1 m c main_v10) (funext fun a => Fin.ext
    (win1_3.rect_emb_val_of_index_zero t a (congrFun (idx t).2.2.2.1 a) _))).trans ?_
  show (StableHlo.after hostOps1 (W2 m c) (Proc.devRef .tc main_v10) : S1x20000.Idx → EReal) (ix2 (0 : Fin 1) n) = _
  after_results
  exact (shapeCast_a_1a_apply _ _ 0 n).trans (congrFun (W2_of m c main_arg8 (by decide)) (ix1 n))

-- Row `r` of block `t` along the rows is row `64 * t + r` of the array.
theorem blk_tokens (t : Fin cfg1.N) (r : Fin 64) (T : Fin 512) (hT : T.val = 64 * t.val + r.val) :
    mat (iblk1 (ent1 m) c 0 t : Vec Ideal S64x1024 .bf16) r = hflat (m ((c.tc : Thread nD τ).loc main_arg0)) T :=
  funext fun d => (congrArg (ent1 m c main_v1) (Shape.idx_ext₂
    ((win1_0.rect_emb_val t (ix2 r d) 0).trans (by rw [(idx t).1, hT]; show t.val * 64 + r.val = _; omega))
    (win1_0.rect_emb_val_of_index_zero t 1 (congrFun (idx t).1 1) _))).trans
    ((congrFun (W3_tokens m c) (ix2 T d)).trans (Head.ent_tok_apply m c T d))

theorem blk_clus (t : Fin cfg1.N) (r : Fin 64) (T : Fin 512) (hT : T.val = 64 * t.val + r.val) :
    col0 (iblk1 (ent1 m) c 4 t : Vec Ideal S64x1 .f32) r = clp (argsOf m c) (0 : Fin 3) T := by
  refine (congrArg (ent1 m c main_v11) (Shape.idx_ext₂ (y := ix2 T (0 : Fin 1))
    ((win1_4.rect_emb_val t (ix2 r 0) 0).trans (by rw [(idx t).2.2.2.2.1, hT]; show t.val * 64 + r.val = _; omega))
    (win1_4.rect_emb_val_of_index_zero t 1 (congrFun (idx t).2.2.2.2.1 1) _))).trans ?_
  show (StableHlo.after hostOps1 (W2 m c) (Proc.devRef .tc main_v11) : S512x1.Idx → EReal) (ix2 T (0 : Fin 1)) = _
  after_results
  exact (slice2_axis1_apply _ _ _ T 0 (0 : Fin 3) rfl).trans (head_clus m c T (0 : Fin 3))

-- Each entry of point `t`'s block is the model's value at its place in the array.
theorem flushed_eq (t : Fin cfg1.N) : (dat1 (ent1 m) c).flushed 5 t
    = ((cfg1.win 5).blk t).view.read (Elt Ideal) fun i : S512x20000.Idx => piece1 (argsOf m c) (i 0) (i 1) := by
  show (cfg1.win 5).cut (grid1.coords t) ((dat1 (ent1 m) c).after 5 t) = _
  rw [after1_5]
  unfold out1_5
  rw [View.canon_unit_zero Head.hz]
  simp only [View.ld_unit_zero (S := S64x1024) Head.hz, View.ld_unit_zero (S := S256x1024) Head.hz, View.ld_unit_zero (S := S20000x256) Head.hz,
    View.ld_unit_zero (S := S1x20000) Head.hz, View.ld_unit_zero (S := S64x1) Head.hz]
  funext j
  obtain ⟨r, n, rfl⟩ : ∃ (r : Fin 64) (n : Fin 20000), j = ix2 r n := ⟨j 0, j 1, eq_ix2 j⟩
  have hT : ((win1_5.rect t).emb (ix2 r n) 0 : ℕ) = 64 * t.val + r.val :=
    (win1_5.rect_emb_val t (ix2 r n) 0).trans (by rw [(idx t).2.2.2.2.2]; show t.val * 64 + r.val = _; omega)
  refine (pay_tail1 _ _ _ _ _ r n).trans ?_
  rw [blk_proj, blk_weight, blk_bias]
  exact (kTail_congr_row _ _ _ _ r _ (logit_congr_row _ _ _ _ _ r _ (blk_tokens m c t r _ hT)) (blk_clus m c t r _ hT) n).trans
    (congrArg (piece1 (argsOf m c) _) (Fin.ext (win1_5.rect_emb_val_of_index_zero t 1 (congrFun (idx t).2.2.2.2.2 1) (ix2 r n)).symm))

-- Row `i` lies in the block of point `i / 64`.
theorem cover (i : S512x20000.Idx) : ∃ t : Fin cfg1.N, (cfg1.win 5).flush t = true ∧ i ∈ ((cfg1.win 5).blk t).view.set := by
  have h0 := idx2_lt0 i
  obtain ⟨t, ht⟩ : ∃ t : Fin cfg1.N, t.val = (i 0).val / 64 := ⟨⟨(i 0).val / 64, by show _ < grid1.N; rw [N_1]; omega⟩, rfl⟩
  refine ⟨t, flush1_5 t, ?_⟩
  show i ∈ ((View.whole main_v12).slice (win1_5.rect t)).set
  rw [View.set_slice_whole, Rect.mem_set_unit, (idx t).2.2.2.2.2]
  intro a
  match a with
  | ⟨0, _⟩ => show t.val * 64 ≤ (i 0).val ∧ (i 0).val < t.val * 64 + 64; omega
  | ⟨1, _⟩ => show 0 * 20000 ≤ (i 1).val ∧ (i 1).val < 0 * 20000 + 20000; have := idx2_lt1 i; omega

end Tail1Out

theorem tail1_out (t : Fin 512) (n : Fin 20000) :
    (W4 (F := Ideal) m c (Proc.devRef .tc main_v12) : S512x20000.Idx → EReal) (ix2 t n) = piece1 (argsOf m c) t n :=
  congrFun ((W4_arr m c 5).trans ((dat1 (ent1 m) c).arrAt_eq_of_cover 5 _ (fun t _ => Tail1Out.flushed_eq m c t) Tail1Out.cover)) (ix2 t n)

end Cert.KernelIdeal.Val

end
-- ==== Proof.KI.PayTail2.lean ====
import proofs.«411270_j76149770158357_2_alg».proof.Proof.Gen.KernelIdeal.Skeleton
import proofs.«411270_j76149770158357_2_alg».proof.Proof.Model
import proofs.«411270_j76149770158357_2_alg».proof.Proof.KI.PayHead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.Model Cert.Spec
open Idealize.ShloMosaic Idealize.ShloMosaic.ValueIdx

-- The store holds the word's logit minus the row's log-sum-exp, plus the row's cluster log-probability.
theorem pay_tail2 (x0 : Vec Ideal S8x1024 .bf16) (x1 : Vec Ideal S64x1024 .bf16) (x2 : Vec Ideal S160000x64 .bf16)
    (x3 : Vec Ideal S1x160000 .f32) (x4 : Vec Ideal S8x1 .f32) (r : Fin 8) (n : Fin 160000) :
    (k2_pay1 (F := Ideal) x0 x1 x2 x3 x4 : S8x160000.Idx → EReal) (ix2 r n)
      = kTail (logit (mat x0) (mat x1) (mat x2) (row0 x3)) (col0 x4) r n := by
  unfold k2_pay1
  exact rows_lse_apply _ _ _ _ _ _ _ _ _ _ r (logits_apply dot_S8x1024_S64x1024_S8x64_1_1_0_0_n_n rfl
    dot_S8x64_S160000x64_S8x160000_1_1_0_0_n_n rfl x0 x1 x2 x3 _ _ _ _ _ _ r) n

end Cert.KernelIdeal.Val

end
-- ==== Proof.KI.ValTail2.lean ====
import proofs.«411270_j76149770158357_2_alg».proof.Proof.KI.Run
import proofs.«411270_j76149770158357_2_alg».proof.Proof.KI.Kept
import proofs.«411270_j76149770158357_2_alg».proof.Proof.KI.Args
import proofs.«411270_j76149770158357_2_alg».proof.Proof.KI.ValHead
import proofs.«411270_j76149770158357_2_alg».proof.Proof.KI.PayTail2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Cert.Model Cert.Spec
open Idealize.ShloMosaic Idealize.ShloMosaic.TcCoe Idealize.ShloMosaic.ValueIdx Idealize.SL.Sem

variable (m : (ℓ : Loc nD τ sig) → Buf (Elt Ideal) ℓ) (c : Dev nD)

namespace Tail2Out

theorem idx : ∀ t : Fin cfg2.N, win2_0.index t = ![t.val, 0] ∧ win2_1.index t = (fun _ => 0) ∧ win2_2.index t = (fun _ => 0)
    ∧ win2_3.index t = (fun _ => 0) ∧ win2_4.index t = ![t.val, 0] ∧ win2_5.index t = ![t.val, 0] :=
  (by decide +kernel : ∀ t : Fin grid2.N, _)

-- At block index 0 on every axis, with the array's own size, the block is the whole array.
theorem blk_proj (t : Fin cfg2.N) : (iblk2 (ent2 m) c 1 t : Vec Ideal S64x1024 .bf16) = m ((c.tc : Thread nD τ).loc main_arg12) := by
  refine (funext fun y => congrArg (ent2 m c main_v13) (funext fun a => Fin.ext
    (win2_1.rect_emb_val_of_index_zero t a (congrFun (idx t).2.1 a) y))).trans ?_
  show (StableHlo.after hostOps2 (W4 m c) (Proc.devRef .tc main_v13) : S64x1024.Idx → EReal) = _
  after_results
  exact W4_of m c main_arg12 (by decide)

theorem blk_weight (t : Fin cfg2.N) : (iblk2 (ent2 m) c 2 t : Vec Ideal S160000x64 .bf16) = m ((c.tc : Thread nD τ).loc main_arg10) := by
  refine (funext fun y => congrArg (ent2 m c main_v14) (funext fun a => Fin.ext
    (win2_2.rect_emb_val_of_index_zero t a (congrFun (idx t).2.2.1 a) y))).trans ?_
  show (StableHlo.after hostOps2 (W4 m c) (Proc.devRef .tc main_v14) : S160000x64.Idx → EReal) = _
  after_results
  exact W4_of m c main_arg10 (by decide)

theorem blk_bias (t : Fin cfg2.N) : row0 (iblk2 (ent2 m) c 3 t : Vec Ideal S1x160000 .f32) = vec (m ((c.tc : Thread nD τ).loc main_arg11)) := by
  funext n
  refine (congrArg (ent2 m c main_v15) (funext fun a => Fin.ext
    (win2_3.rect_emb_val_of_index_zero t a (congrFun (idx t).2.2.2.1 a) _))).trans ?_
  show (StableHlo.after hostOps2 (W4 m c) (Proc.devRef .tc main_v15) : S1x160000.Idx → EReal) (ix2 (0 : Fin 1) n) = _
  after_results
  exact (shapeCast_a_1a_apply _ _ 0 n).trans (congrFun (W4_of m c main_arg11 (by decide)) (ix1 n))

-- Row `r` of block `t` along the rows is row `8 * t + r` of the array.
theorem blk_tokens (t : Fin cfg2.N) (r : Fin 8) (T : Fin 512) (hT : T.val = 8 * t.val + r.val) :
    mat (iblk2 (ent2 m) c 0 t : Vec Ideal S8x1024 .bf16) r = hflat (m ((c.tc : Thread nD τ).loc main_arg0)) T :=
  funext fun d => (congrArg (ent2 m c main_v1) (Shape.idx_ext₂
    ((win2_0.rect_emb_val t (ix2 r d) 0).trans (by rw [(idx t).1, hT]; show t.val * 8 + r.val = _; omega))
    (win2_0.rect_emb_val_of_index_zero t 1 (congrFun (idx t).1 1) _))).trans
    ((congrFun (W5_tokens m c) (ix2 T d)).trans (Head.ent_tok_apply m c T d))

theorem blk_clus (t : Fin cfg2.N) (r : Fin 8) (T : Fin 512) (hT : T.val = 8 * t.val + r.val) :
    col0 (iblk2 (ent2 m) c 4 t : Vec Ideal S8x1 .f32) r = clp (argsOf m c) (1 : Fin 3) T := by
  refine (congrArg (ent2 m c main_v16) (Shape.idx_ext₂ (y := ix2 T (0 : Fin 1))
    ((win2_4.rect_emb_val t (ix2 r 0) 0).trans (by rw [(idx t).2.2.2.2.1, hT]; show t.val * 8 + r.val = _; omega))
    (win2_4.rect_emb_val_of_index_zero t 1 (congrFun (idx t).2.2.2.2.1 1) _))).trans ?_
  show (StableHlo.after hostOps2 (W4 m c) (Proc.devRef .tc main_v16) : S512x1.Idx → EReal) (ix2 T (0 : Fin 1)) = _
  after_results
  exact (slice2_axis1_apply _ _ _ T 0 (1 : Fin 3) rfl).trans (head_clus m c T (1 : Fin 3))

-- Each entry of point `t`'s block is the model's value at its place in the array.
theorem flushed_eq (t : Fin cfg2.N) : (dat2 (ent2 m) c).flushed 5 t
    = ((cfg2.win 5).blk t).view.read (Elt Ideal) fun i : S512x160000.Idx => piece2 (argsOf m c) (i 0) (i 1) := by
  show (cfg2.win 5).cut (grid2.coords t) ((dat2 (ent2 m) c).after 5 t) = _
  rw [after2_5]
  unfold out2_5
  rw [View.canon_unit_zero Head.hz]
  simp only [View.ld_unit_zero (S := S8x1024) Head.hz, View.ld_unit_zero (S := S64x1024) Head.hz, View.ld_unit_zero (S := S160000x64) Head.hz,
    View.ld_unit_zero (S := S1x160000) Head.hz, View.ld_unit_zero (S := S8x1) Head.hz]
  funext j
  obtain ⟨r, n, rfl⟩ : ∃ (r : Fin 8) (n : Fin 160000), j = ix2 r n := ⟨j 0, j 1, eq_ix2 j⟩
  have hT : ((win2_5.rect t).emb (ix2 r n) 0 : ℕ) = 8 * t.val + r.val :=
    (win2_5.rect_emb_val t (ix2 r n) 0).trans (by rw [(idx t).2.2.2.2.2]; show t.val * 8 + r.val = _; omega)
  refine (pay_tail2 _ _ _ _ _ r n).trans ?_
  rw [blk_proj, blk_weight, blk_bias]
  exact (kTail_congr_row _ _ _ _ r _ (logit_congr_row _ _ _ _ _ r _ (blk_tokens m c t r _ hT)) (blk_clus m c t r _ hT) n).trans
    (congrArg (piece2 (argsOf m c) _) (Fin.ext (win2_5.rect_emb_val_of_index_zero t 1 (congrFun (idx t).2.2.2.2.2 1) (ix2 r n)).symm))

-- Row `i` lies in the block of point `i / 8`.
theorem cover (i : S512x160000.Idx) : ∃ t : Fin cfg2.N, (cfg2.win 5).flush t = true ∧ i ∈ ((cfg2.win 5).blk t).view.set := by
  have h0 := idx2_lt0 i
  obtain ⟨t, ht⟩ : ∃ t : Fin cfg2.N, t.val = (i 0).val / 8 := ⟨⟨(i 0).val / 8, by show _ < grid2.N; rw [N_2]; omega⟩, rfl⟩
  refine ⟨t, flush2_5 t, ?_⟩
  show i ∈ ((View.whole main_v17).slice (win2_5.rect t)).set
  rw [View.set_slice_whole, Rect.mem_set_unit, (idx t).2.2.2.2.2]
  intro a
  match a with
  | ⟨0, _⟩ => show t.val * 8 ≤ (i 0).val ∧ (i 0).val < t.val * 8 + 8; omega
  | ⟨1, _⟩ => show 0 * 160000 ≤ (i 1).val ∧ (i 1).val < 0 * 160000 + 160000; have := idx2_lt1 i; omega

end Tail2Out

theorem tail2_out (t : Fin 512) (n : Fin 160000) :
    (W6 (F := Ideal) m c (Proc.devRef .tc main_v17) : S512x160000.Idx → EReal) (ix2 t n) = piece2 (argsOf m c) t n :=
  congrFun ((W6_arr m c 5).trans ((dat2 (ent2 m) c).arrAt_eq_of_cover 5 _ (fun t _ => Tail2Out.flushed_eq m c t) Tail2Out.cover)) (ix2 t n)

end Cert.KernelIdeal.Val

end
-- ==== Proof.KI.PayTail3.lean ====
import proofs.«411270_j76149770158357_2_alg».proof.Proof.Gen.KernelIdeal.Skeleton
import proofs.«411270_j76149770158357_2_alg».proof.Proof.Model
import proofs.«411270_j76149770158357_2_alg».proof.Proof.KI.PayHead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.Model Cert.Spec
open Idealize.ShloMosaic Idealize.ShloMosaic.ValueIdx

-- The store holds the word's logit minus the row's log-sum-exp, plus the row's cluster log-probability.
theorem pay_tail3 (x0 : Vec Ideal S32x1024 .bf16) (x1 : Vec Ideal S16x1024 .bf16) (x2 : Vec Ideal S67735x16 .bf16)
    (x3 : Vec Ideal S1x67735 .f32) (x4 : Vec Ideal S32x1 .f32) (r : Fin 32) (n : Fin 67735) :
    (k3_pay1 (F := Ideal) x0 x1 x2 x3 x4 : S32x67735.Idx → EReal) (ix2 r n)
      = kTail (logit (mat x0) (mat x1) (mat x2) (row0 x3)) (col0 x4) r n := by
  unfold k3_pay1
  exact rows_lse_apply _ _ _ _ _ _ _ _ _ _ r (logits_apply dot_S32x1024_S16x1024_S32x16_1_1_0_0_n_n rfl
    dot_S32x16_S67735x16_S32x67735_1_1_0_0_n_n rfl x0 x1 x2 x3 _ _ _ _ _ _ r) n

end Cert.KernelIdeal.Val

end
-- ==== Proof.KI.ValTail3.lean ====
import proofs.«411270_j76149770158357_2_alg».proof.Proof.KI.Run
import proofs.«411270_j76149770158357_2_alg».proof.Proof.KI.Kept
import proofs.«411270_j76149770158357_2_alg».proof.Proof.KI.Args
import proofs.«411270_j76149770158357_2_alg».proof.Proof.KI.ValHead
import proofs.«411270_j76149770158357_2_alg».proof.Proof.KI.PayTail3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Cert.Model Cert.Spec
open Idealize.ShloMosaic Idealize.ShloMosaic.TcCoe Idealize.ShloMosaic.ValueIdx Idealize.SL.Sem

variable (m : (ℓ : Loc nD τ sig) → Buf (Elt Ideal) ℓ) (c : Dev nD)

namespace Tail3Out

theorem idx : ∀ t : Fin cfg3.N, win3_0.index t = ![t.val, 0] ∧ win3_1.index t = (fun _ => 0) ∧ win3_2.index t = (fun _ => 0)
    ∧ win3_3.index t = (fun _ => 0) ∧ win3_4.index t = ![t.val, 0] ∧ win3_5.index t = ![t.val, 0] :=
  (by decide +kernel : ∀ t : Fin grid3.N, _)

-- At block index 0 on every axis, with the array's own size, the block is the whole array.
theorem blk_proj (t : Fin cfg3.N) : (iblk3 (ent3 m) c 1 t : Vec Ideal S16x1024 .bf16) = m ((c.tc : Thread nD τ).loc main_arg15) := by
  refine (funext fun y => congrArg (ent3 m c main_v18) (funext fun a => Fin.ext
    (win3_1.rect_emb_val_of_index_zero t a (congrFun (idx t).2.1 a) y))).trans ?_
  show (StableHlo.after hostOps3 (W6 m c) (Proc.devRef .tc main_v18) : S16x1024.Idx → EReal) = _
  after_results
  exact W6_of m c main_arg15 (by decide)

theorem blk_weight (t : Fin cfg3.N) : (iblk3 (ent3 m) c 2 t : Vec Ideal S67735x16 .bf16) = m ((c.tc : Thread nD τ).loc main_arg13) := by
  refine (funext fun y => congrArg (ent3 m c main_v19) (funext fun a => Fin.ext
    (win3_2.rect_emb_val_of_index_zero t a (congrFun (idx t).2.2.1 a) y))).trans ?_
  show (StableHlo.after hostOps3 (W6 m c) (Proc.devRef .tc main_v19) : S67735x16.Idx → EReal) = _
  after_results
  exact W6_of m c main_arg13 (by decide)

theorem blk_bias (t : Fin cfg3.N) : row0 (iblk3 (ent3 m) c 3 t : Vec Ideal S1x67735 .f32) = vec (m ((c.tc : Thread nD τ).loc main_arg14)) := by
  funext n
  refine (congrArg (ent3 m c main_v20) (funext fun a => Fin.ext
    (win3_3.rect_emb_val_of_index_zero t a (congrFun (idx t).2.2.2.1 a) _))).trans ?_
  show (StableHlo.after hostOps3 (W6 m c) (Proc.devRef .tc main_v20) : S1x67735.Idx → EReal) (ix2 (0 : Fin 1) n) = _
  after_results
  exact (shapeCast_a_1a_apply _ _ 0 n).trans (congrFun (W6_of m c main_arg14 (by decide)) (ix1 n))

-- Row `r` of block `t` along the rows is row `32 * t + r` of the array.
theorem blk_tokens (t : Fin cfg3.N) (r : Fin 32) (T : Fin 512) (hT : T.val = 32 * t.val + r.val) :
    mat (iblk3 (ent3 m) c 0 t : Vec Ideal S32x1024 .bf16) r = hflat (m ((c.tc : Thread nD τ).loc main_arg0)) T :=
  funext fun d => (congrArg (ent3 m c main_v1) (Shape.idx_ext₂
    ((win3_0.rect_emb_val t (ix2 r d) 0).trans (by rw [(idx t).1, hT]; show t.val * 32 + r.val = _; omega))
    (win3_0.rect_emb_val_of_index_zero t 1 (congrFun (idx t).1 1) _))).trans
    ((congrFun (W7_tokens m c) (ix2 T d)).trans (Head.ent_tok_apply m c T d))

theorem blk_clus (t : Fin cfg3.N) (r : Fin 32) (T : Fin 512) (hT : T.val = 32 * t.val + r.val) :
    col0 (iblk3 (ent3 m) c 4 t : Vec Ideal S32x1 .f32) r = clp (argsOf m c) (2 : Fin 3) T := by
  refine (congrArg (ent3 m c main_v21) (Shape.idx_ext₂ (y := ix2 T (0 : Fin 1))
    ((win3_4.rect_emb_val t (ix2 r 0) 0).trans (by rw [(idx t).2.2.2.2.1, hT]; show t.val * 32 + r.val = _; omega))
    (win3_4.rect_emb_val_of_index_zero t 1 (congrFun (idx t).2.2.2.2.1 1) _))).trans ?_
  show (StableHlo.after hostOps3 (W6 m c) (Proc.devRef .tc main_v21) : S512x1.Idx → EReal) (ix2 T (0 : Fin 1)) = _
  after_results
  exact (slice2_axis1_apply _ _ _ T 0 (2 : Fin 3) rfl).trans (head_clus m c T (2 : Fin 3))

-- Each entry of point `t`'s block is the model's value at its place in the array.
theorem flushed_eq (t : Fin cfg3.N) : (dat3 (ent3 m) c).flushed 5 t
    = ((cfg3.win 5).blk t).view.read (Elt Ideal) fun i : S512x67735.Idx => piece3 (argsOf m c) (i 0) (i 1) := by
  show (cfg3.win 5).cut (grid3.coords t) ((dat3 (ent3 m) c).after 5 t) = _
  rw [after3_5]
  unfold out3_5
  rw [View.canon_unit_zero Head.hz]
  simp only [View.ld_unit_zero (S := S32x1024) Head.hz, View.ld_unit_zero (S := S16x1024) Head.hz, View.ld_unit_zero (S := S67735x16) Head.hz,
    View.ld_unit_zero (S := S1x67735) Head.hz, View.ld_unit_zero (S := S32x1) Head.hz]
  funext j
  obtain ⟨r, n, rfl⟩ : ∃ (r : Fin 32) (n : Fin 67735), j = ix2 r n := ⟨j 0, j 1, eq_ix2 j⟩
  have hT : ((win3_5.rect t).emb (ix2 r n) 0 : ℕ) = 32 * t.val + r.val :=
    (win3_5.rect_emb_val t (ix2 r n) 0).trans (by rw [(idx t).2.2.2.2.2]; show t.val * 32 + r.val = _; omega)
  refine (pay_tail3 _ _ _ _ _ r n).trans ?_
  rw [blk_proj, blk_weight, blk_bias]
  exact (kTail_congr_row _ _ _ _ r _ (logit_congr_row _ _ _ _ _ r _ (blk_tokens m c t r _ hT)) (blk_clus m c t r _ hT) n).trans
    (congrArg (piece3 (argsOf m c) _) (Fin.ext (win3_5.rect_emb_val_of_index_zero t 1 (congrFun (idx t).2.2.2.2.2 1) (ix2 r n)).symm))

-- Row `i` lies in the block of point `i / 32`.
theorem cover (i : S512x67735.Idx) : ∃ t : Fin cfg3.N, (cfg3.win 5).flush t = true ∧ i ∈ ((cfg3.win 5).blk t).view.set := by
  have h0 := idx2_lt0 i
  obtain ⟨t, ht⟩ : ∃ t : Fin cfg3.N, t.val = (i 0).val / 32 := ⟨⟨(i 0).val / 32, by show _ < grid3.N; rw [N_3]; omega⟩, rfl⟩
  refine ⟨t, flush3_5 t, ?_⟩
  show i ∈ ((View.whole main_v22).slice (win3_5.rect t)).set
  rw [View.set_slice_whole, Rect.mem_set_unit, (idx t).2.2.2.2.2]
  intro a
  match a with
  | ⟨0, _⟩ => show t.val * 32 ≤ (i 0).val ∧ (i 0).val < t.val * 32 + 32; omega
  | ⟨1, _⟩ => show 0 * 67735 ≤ (i 1).val ∧ (i 1).val < 0 * 67735 + 67735; have := idx2_lt1 i; omega

end Tail3Out

theorem tail3_out (t : Fin 512) (n : Fin 67735) :
    (W8 (F := Ideal) m c (Proc.devRef .tc main_v22) : S512x67735.Idx → EReal) (ix2 t n) = piece3 (argsOf m c) t n :=
  congrFun ((W8_arr m c 5).trans ((dat3 (ent3 m) c).arrAt_eq_of_cover 5 _ (fun t _ => Tail3Out.flushed_eq m c t) Tail3Out.cover)) (ix2 t n)

end Cert.KernelIdeal.Val

end
-- ==== Proof.KI.ValOut.lean ====
import proofs.«411270_j76149770158357_2_alg».proof.Proof.KI.Run
import proofs.«411270_j76149770158357_2_alg».proof.Proof.KI.Args
import proofs.«411270_j76149770158357_2_alg».proof.Proof.KI.ValHead
import proofs.«411270_j76149770158357_2_alg».proof.Proof.KI.ValTail1
import proofs.«411270_j76149770158357_2_alg».proof.Proof.KI.ValTail2
import proofs.«411270_j76149770158357_2_alg».proof.Proof.KI.ValTail3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Cert.Model Cert.Spec
open Idealize.ShloMosaic Idealize.ShloMosaic.TcCoe Idealize.ShloMosaic.ValueIdx Idealize.SL.Sem

variable (m : (ℓ : Loc nD τ sig) → Buf (Elt Ideal) ℓ) (c : Dev nD)

noncomputable def lossOf {F : FTy → Type} [FloatOps F] (out : (⟨S64x8x267735, .f32⟩ : BufTy).Contents (Elt F)) (target : (⟨S64x8, .i32⟩ : BufTy).Contents (Elt F)) :
    (⟨S_, .f32⟩ : BufTy).Contents (Elt F) :=
  Host.negf (Host.divf (Host.reduceAdd (shapeCast _ (select (Host.reduce IntOp.andi (andi (cmpi .sge (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1) (broadcastInDim S64x8x1x1 ![] bcast_S_S64x8x1x1 (constantI S_ 32 0#32))) (cmpi .sle (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1) (broadcastInDim S64x8x1x1 ![0, 1, 2, 3] bcast_S1x1x1x1_S64x8x1x1_0_1_2_3 (broadcastInDim S1x1x1x1 ![3] bcast_S1_S1x1x1x1_3 (constantI S1 32 267734#32))))) (constantI S_ 1 1#1) reducesTo_S64x8x1x1_S64x8x1_d3 h_S_) (Host.gather gather_S64x8x267735_S64x8x1x1_S64x8x1_n_2_01_01_2_3_111 out (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1)) (broadcastInDim S64x8x1 ![] bcast_S_S64x8x1 (constant S_ .f32 0x7FC00000#32))) shapeCasts_S64x8x1_S64x8) (constant S_ .f32 0x00000000#32) reducesTo_S64x8_S_d0_1 h_S_) (constant S_ .f32 0x44000000#32))

set_option maxHeartbeats 4000000 in

private theorem tail_eq {F : FTy → Type} [FloatOps F] (V : Valuation τ sig (Elt F)) (target : (⟨S64x8, .i32⟩ : BufTy).Contents (Elt F))
    (h25 : V (Proc.devRef .tc main_v25) = broadcastInDim S64x8x1 ![0, 1] bcast_S64x8_S64x8x1_0_1 target) :
    StableHlo.after hostOps4_2 (StableHlo.after hostOps4_1 V) (Proc.devRef .tc main_v30) = lossOf (V (Proc.devRef .tc main_v24)) target := by
  unfold lossOf
  after_results_simp
  rw [h25]
  rfl

private theorem W8_target {F : FTy → Type} [FloatOps F] (m : (ℓ : Loc nD τ sig) → Buf (Elt F) ℓ) (c : Dev nD) :
    W8 (F := F) m c (Proc.devRef .tc main_arg1) = m ((c.tc : Thread nD τ).loc main_arg1) :=
  (W8_of_ne m c main_arg1 (by decide)).trans ((StableHlo.after_of_writes_sub hostOps3 _ hostOps3_writes (by decide)).trans (W6_of m c main_arg1 (by decide)))

private theorem W11_out {F : FTy → Type} [FloatOps F] (m : (ℓ : Loc nD τ sig) → Buf (Elt F) ℓ) (c : Dev nD) :
    W11 (F := F) m c (Proc.devRef .tc main_v24) = W9 (F := F) m c (Proc.devRef .tc main_v24) :=
  (StableHlo.after_of_writes_sub hostOps4_2 _ hostOps4_2_writes (by decide)).trans
    (StableHlo.after_of_writes_sub hostOps4_1 _ hostOps4_1_writes (by decide))

private theorem W8_tail2 : W8 (F := Ideal) m c (Proc.devRef .tc main_v17) = W6 (F := Ideal) m c (Proc.devRef .tc main_v17) :=
  (W8_of_ne m c main_v17 (by decide)).trans (StableHlo.after_of_writes_sub hostOps3 _ hostOps3_writes (by decide))

private theorem W8_tail1 : W8 (F := Ideal) m c (Proc.devRef .tc main_v12) = W4 (F := Ideal) m c (Proc.devRef .tc main_v12) :=
  (W8_of_ne m c main_v12 (by decide)).trans ((StableHlo.after_of_writes_sub hostOps3 _ hostOps3_writes (by decide)).trans
    ((W6_of_ne m c main_v12 (by decide)).trans (StableHlo.after_of_writes_sub hostOps2 _ hostOps2_writes (by decide))))

private theorem W8_head : W8 (F := Ideal) m c (Proc.devRef .tc main_v7_0) = W2 (F := Ideal) m c (Proc.devRef .tc main_v7_0) :=
  (W8_of_ne m c main_v7_0 (by decide)).trans ((StableHlo.after_of_writes_sub hostOps3 _ hostOps3_writes (by decide)).trans
    ((W6_of_ne m c main_v7_0 (by decide)).trans ((StableHlo.after_of_writes_sub hostOps2 _ hostOps2_writes (by decide)).trans
      ((W4_of_ne m c main_v7_0 (by decide)).trans (StableHlo.after_of_writes_sub hostOps1 _ hostOps1_writes (by decide))))))

private theorem W9_out :
    (W9 (F := Ideal) m c (Proc.devRef .tc main_v24) : S64x8x267735.Idx → EReal) =
      shapeCast S64x8x267735
        (concatenate S512x267735 1
          [⟨S512x20000, (W8 (F := Ideal) m c (Proc.devRef .tc main_v7_0) : S512x20000.Idx → EReal)⟩,
           ⟨S512x20000, (W8 (F := Ideal) m c (Proc.devRef .tc main_v12) : S512x20000.Idx → EReal)⟩,
           ⟨S512x160000, (W8 (F := Ideal) m c (Proc.devRef .tc main_v17) : S512x160000.Idx → EReal)⟩,
           ⟨S512x67735, (W8 (F := Ideal) m c (Proc.devRef .tc main_v22) : S512x67735.Idx → EReal)⟩]
          concatenates_S512x20000_S512x20000_S512x160000_S512x67735_S512x267735_d1)
        shapeCasts_S512x267735_S64x8x267735 := by
  show StableHlo.after hostOps4 (W8 (F := Ideal) m c) (Proc.devRef .tc main_v24) = _
  after_results
  rfl

-- The piece whose span holds the column, read at the column less the extents before it.
private theorem piece_apply {N : ℕ} (xs : List ((s : Shape) × (s.Idx → EReal))) (h : Shape.Concatenates (xs.map (·.1)) S512x267735 1)
    (T : Fin 512) (n : Fin 267735) (k : ℕ) (hk : k < xs.length) (x : (⟨2, ![512, N]⟩ : Shape).Idx → EReal)
    (hx : xs[k] = ⟨⟨2, ![512, N]⟩, x⟩) (pre : ℕ)
    (hpre : (((xs.take k).map (·.1)).map fun s => if h : s.rank = S512x267735.rank then s.size ((1 : Fin S512x267735.rank).cast h.symm) else 0).sum = pre)
    (hlo : pre ≤ n.val) (hhi : n.val - pre < N) :
    concatenate S512x267735 1 xs h (ix2 T n) = x (ix2 T ⟨n.val - pre, hhi⟩) :=
  concatenate_apply_piece 1 xs h (ix2 T n) k hk _ x hx rfl pre hpre (ix2 T ⟨n.val - pre, hhi⟩)
    (fun a ha => match a with | ⟨0, _⟩ => rfl | ⟨1, _⟩ => absurd rfl ha) (by show pre + (n.val - pre) = n.val; omega)

-- Position (s, b, n) of the reshaped array is row 8 s + b, column n of the four arrays laid side by side.
theorem out_eq (s : Fin 64) (b : Fin 8) (n : Fin 267735) :
    (W11 (F := Ideal) m c (Proc.devRef .tc main_v24) : S64x8x267735.Idx → EReal) (ix3 s b n) = outAt (argsOf m c) (tok s b) n := by
  have hb : b.val < 8 := b.isLt
  have hn : n.val < 267735 := n.isLt
  rw [W11_out m c, W9_out m c]
  refine (shapeCast_apply _ _ (ix3 s b n) (ix2 (tok s b) n) (by
    rw [Shape.rowMajor_val_two, Shape.rowMajor_val_three]
    show (8 * s.val + b.val) * 267735 + n.val = (s.val * 8 + b.val) * 267735 + n.val
    omega)).trans ?_
  unfold outAt
  by_cases h0 : n.val < 20000
  · rw [dif_pos h0, piece_apply _ _ (tok s b) n 0 (by show (0 : ℕ) < 4; omega) _ rfl 0 rfl (Nat.zero_le _) h0, W8_head m c]
    exact head_words m c (tok s b) ⟨n.val, h0⟩
  rw [dif_neg h0]
  by_cases h1 : n.val < 40000
  · rw [dif_pos h1, piece_apply _ _ (tok s b) n 1 (by show (1 : ℕ) < 4; omega) _ rfl 20000 rfl (by omega) (by omega), W8_tail1 m c]
    exact tail1_out m c (tok s b) _
  rw [dif_neg h1]
  by_cases h2 : n.val < 200000
  · rw [dif_pos h2, piece_apply _ _ (tok s b) n 2 (by show (2 : ℕ) < 4; omega) _ rfl 40000 rfl (by omega) (by omega), W8_tail2 m c]
    exact tail2_out m c (tok s b) _
  rw [dif_neg h2, piece_apply _ _ (tok s b) n 3 (by show (3 : ℕ) < 4; omega) _ rfl 200000
    (by show 20000 + (20000 + (160000 + 0)) = 200000; omega) (by omega) (by omega)]
  exact tail3_out m c (tok s b) _

theorem loss_eq {F : FTy → Type} [FloatOps F] (m : (ℓ : Loc nD τ sig) → Buf (Elt F) ℓ) (c : Dev nD) :
    W11 (F := F) m c (Proc.devRef .tc main_v30) = lossOf (W11 (F := F) m c (Proc.devRef .tc main_v24)) (m ((c.tc : Thread nD τ).loc main_arg1)) := by
  rw [W11_out m c]
  refine tail_eq (W9 (F := F) m c) (m ((c.tc : Thread nD τ).loc main_arg1)) ?_

  show StableHlo.after hostOps4 (W8 (F := F) m c) (Proc.devRef .tc main_v25) = _
  after_results
  rw [W8_target m c]

end Cert.KernelIdeal.Val

end
-- ==== Proof.KI.Finite.lean ====
import proofs.«411270_j76149770158357_2_alg».proof.Defs
import proofs.«411270_j76149770158357_2_alg».proof.Proof.KI.Args
import Idealize.ShloMosaic.Lib.ReduceAll
import Idealize.ShloMosaic.Lib.ValueIdx

noncomputable section

namespace Cert.KernelIdeal.Val

open Cert.KernelIdeal Cert.Model
open Idealize.ShloMosaic Idealize.ShloMosaic.TcCoe Idealize.SL.Sem

local instance subsingleton_scalar_idx : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem ofBool_eq_one {b : Bool} (h : BitVec.ofBool b = 1#1) : b = true := by
  revert h; cases b <;> decide

theorem real_of_abs_lt_top (x : EReal) (h : max x (-x) < ⊤) : ∃ r : ℝ, x = (r : EReal) := by
  induction x using EReal.rec with
  | bot => simp at h
  | coe r => exact ⟨r, rfl⟩
  | top => simp at h

theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ValueIdx.ix0 = 1#1) :
    Cert.Spec.IsReal x := by
  intro i
  have h := Host.reduce_andi_all _ _ hr hu _ e i
  have h2 : BitVec.ofBool (decide (max (x i) (-(x i)) < Ideal.ofBits .f32 0x7F800000#32)) = 1#1 := h
  rw [ofBits_inf] at h2
  exact real_of_abs_lt_top (x i) (of_decide_eq_true (ofBool_eq_one h2))

theorem isReal_of_pre [hPre_finite_inputs : Cert.Pre_finite_inputs.Facts] (m : (ℓ : Loc nD τ sig) → Buf (Elt Ideal) ℓ)
    (hpre : Cert.Pre_KernelIdeal m) (c : Dev nD) : (argsOf m c).IsReal := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact
    { hidden := isReal_of_all _ _ _ _ h0
      cw := isReal_of_all _ _ _ _ h2
      cb := isReal_of_all _ _ _ _ h3
      W0 := isReal_of_all _ _ _ _ h4
      b0 := isReal_of_all _ _ _ _ h5
      P0 := isReal_of_all _ _ _ _ h6
      W1 := isReal_of_all _ _ _ _ h7
      b1 := isReal_of_all _ _ _ _ h8
      P1 := isReal_of_all _ _ _ _ h9
      W2 := isReal_of_all _ _ _ _ h10
      b2 := isReal_of_all _ _ _ _ h11
      P2 := isReal_of_all _ _ _ _ h12
      W3 := isReal_of_all _ _ _ _ h13
      b3 := isReal_of_all _ _ _ _ h14
      P3 := isReal_of_all _ _ _ _ h15 }

end Cert.KernelIdeal.Val

end
-- ==== Proof.Ref.RunProof.lean ====
import proofs.«411270_j76149770158357_2_alg».proof.Proof.Ref.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

-- The operations in six consecutive stretches, each a piece of the one list: the head, the three tail clusters, the concatenation, the closing gather and mean.
abbrev ops1 : List (HloOp τ sig (Elt F)) := (ops (F := F)).take 23
abbrev ops2 : List (HloOp τ sig (Elt F)) := ((ops (F := F)).drop 23).take 25
abbrev ops3 : List (HloOp τ sig (Elt F)) := ((ops (F := F)).drop 48).take 25
abbrev ops4 : List (HloOp τ sig (Elt F)) := ((ops (F := F)).drop 73).take 25
abbrev ops5 : List (HloOp τ sig (Elt F)) := ((ops (F := F)).drop 98).take 1
abbrev ops6 : List (HloOp τ sig (Elt F)) := (ops (F := F)).drop 99
theorem ops_split : (ops (F := F)) = ops1 ++ (ops2 ++ (ops3 ++ (ops4 ++ (ops5 ++ ops6)))) := rfl

theorem reshape_main_v16 (hx hy) (V : Valuation τ sig (Elt F)) :
    (reshape (τ := τ) (Val := Elt F) main_v15 main_v16 rfl shapeCasts_S64x8x1_S64x8 hx hy).result V (no_index (Proc.devRef .tc main_v16))
      = shapeCast S64x8 (V (Proc.devRef .tc main_v15)) shapeCasts_S64x8x1_S64x8 := by
  rw [reshape_result]; rfl
theorem reshape_main_v27 (hx hy) (V : Valuation τ sig (Elt F)) :
    (reshape (τ := τ) (Val := Elt F) main_v26 main_v27 rfl shapeCasts_S64x8x1_S64x8 hx hy).result V (no_index (Proc.devRef .tc main_v27))
      = shapeCast S64x8 (V (Proc.devRef .tc main_v26)) shapeCasts_S64x8x1_S64x8 := by
  rw [reshape_result]; rfl
theorem reshape_main_v38 (hx hy) (V : Valuation τ sig (Elt F)) :
    (reshape (τ := τ) (Val := Elt F) main_v37 main_v38 rfl shapeCasts_S64x8x1_S64x8 hx hy).result V (no_index (Proc.devRef .tc main_v38))
      = shapeCast S64x8 (V (Proc.devRef .tc main_v37)) shapeCasts_S64x8x1_S64x8 := by
  rw [reshape_result]; rfl
theorem reshape_main_v45 (hx hy) (V : Valuation τ sig (Elt F)) :
    (reshape (τ := τ) (Val := Elt F) main_v44 main_v45 rfl shapeCasts_S64x8x1_S64x8 hx hy).result V (no_index (Proc.devRef .tc main_v45))
      = shapeCast S64x8 (V (Proc.devRef .tc main_v44)) shapeCasts_S64x8x1_S64x8 := by
  rw [reshape_result]; rfl

local macro "mop_results" : tactic =>
  `(tactic| repeat (first
      | (rw [binary_result_ne]; rotate_left; decide)
      | (rw [unary_result_ne]; rotate_left; decide)
      | (rw [nullary_result_ne]; rotate_left; decide)))

local macro "eval_results" : tactic => `(tactic| simp (disch := decide) only [ops1, ops2, ops3, ops4, ops5, ops6, List.take_succ_cons, List.take_zero, List.drop_succ_cons, List.drop_zero, after_cons, after_nil,
      nullary_result', unary_result', binary_result', ternary_result', quaternary_result', reshape_main_v16, reshape_main_v27, reshape_main_v38, nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

def fA7 (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) : (⟨S64x8x20003, .f32⟩ : BufTy).Contents (Elt F) :=
  (subf (subf ((addf (Host.dotGeneral dot_S64x8x1024_S20003x1024_S64x8x20003_2_1_01_0_n_n none (Host.dotGeneral dot_S64x8x1024_S1024x1024_S64x8x1024_2_1_01_0_n_n none x0 x6) (concatenate S20003x1024 0 [⟨S20000x1024, x4⟩, ⟨S3x1024, x2⟩] concatenates_S20000x1024_S3x1024_S20003x1024_d0)) (broadcastInDim S64x8x20003 ![0, 1, 2] bcast_S1x1x20003_S64x8x20003_0_1_2 (broadcastInDim S1x1x20003 ![2] bcast_S20003_S1x1x20003_2 (concatenate S20003 0 [⟨S20000, x5⟩, ⟨S3, x3⟩] concatenates_S20000_S3_S20003_d0))))) (broadcastInDim S64x8x20003 ![0, 1, 2] bcast_S64x8x1_S64x8x20003_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x1024_S20003x1024_S64x8x20003_2_1_01_0_n_n none (Host.dotGeneral dot_S64x8x1024_S1024x1024_S64x8x1024_2_1_01_0_n_n none x0 x6) (concatenate S20003x1024 0 [⟨S20000x1024, x4⟩, ⟨S3x1024, x2⟩] concatenates_S20000x1024_S3x1024_S20003x1024_d0)) (broadcastInDim S64x8x20003 ![0, 1, 2] bcast_S1x1x20003_S64x8x20003_0_1_2 (broadcastInDim S1x1x20003 ![2] bcast_S20003_S1x1x20003_2 (concatenate S20003 0 [⟨S20000, x5⟩, ⟨S3, x3⟩] concatenates_S20000_S3_S20003_d0))))) (constant S_ .f32 0xFF800000#32) reducesTo_S64x8x20003_S64x8_d2 h_S_))))) (broadcastInDim S64x8x20003 ![0, 1, 2] bcast_S64x8x1_S64x8x20003_0_1_2 (Host.log (broadcastInDim S64x8x1 ![0, 1] bcast_S64x8_S64x8x1_0_1 (Host.reduceAdd (Host.exp (subf ((addf (Host.dotGeneral dot_S64x8x1024_S20003x1024_S64x8x20003_2_1_01_0_n_n none (Host.dotGeneral dot_S64x8x1024_S1024x1024_S64x8x1024_2_1_01_0_n_n none x0 x6) (concatenate S20003x1024 0 [⟨S20000x1024, x4⟩, ⟨S3x1024, x2⟩] concatenates_S20000x1024_S3x1024_S20003x1024_d0)) (broadcastInDim S64x8x20003 ![0, 1, 2] bcast_S1x1x20003_S64x8x20003_0_1_2 (broadcastInDim S1x1x20003 ![2] bcast_S20003_S1x1x20003_2 (concatenate S20003 0 [⟨S20000, x5⟩, ⟨S3, x3⟩] concatenates_S20000_S3_S20003_d0))))) (broadcastInDim S64x8x20003 ![0, 1, 2] bcast_S64x8x1_S64x8x20003_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x1024_S20003x1024_S64x8x20003_2_1_01_0_n_n none (Host.dotGeneral dot_S64x8x1024_S1024x1024_S64x8x1024_2_1_01_0_n_n none x0 x6) (concatenate S20003x1024 0 [⟨S20000x1024, x4⟩, ⟨S3x1024, x2⟩] concatenates_S20000x1024_S3x1024_S20003x1024_d0)) (broadcastInDim S64x8x20003 ![0, 1, 2] bcast_S1x1x20003_S64x8x20003_0_1_2 (broadcastInDim S1x1x20003 ![2] bcast_S20003_S1x1x20003_2 (concatenate S20003 0 [⟨S20000, x5⟩, ⟨S3, x3⟩] concatenates_S20000_S3_S20003_d0))))) (constant S_ .f32 0xFF800000#32) reducesTo_S64x8x20003_S64x8_d2 h_S_)))))) (constant S_ .f32 0x00000000#32) reducesTo_S64x8x20003_S64x8_d2 h_S_)))))

set_option maxRecDepth 8192 in
set_option maxHeartbeats 4000000 in
theorem A7 (V : Valuation τ sig (Elt F)) :
    after (ops1 (F := F)) V (Proc.devRef .tc main_v7) = fA7 (V (Proc.devRef .tc main_arg0)) (V (Proc.devRef .tc main_arg2)) (V (Proc.devRef .tc main_arg3)) (V (Proc.devRef .tc main_arg4)) (V (Proc.devRef .tc main_arg5)) (V (Proc.devRef .tc main_arg6)) := by
  unfold fA7
  eval_results
  mop_results
  simp only [TRef.ofBuf, TRef.toBuf, cast_cast]
  repeat rw [cast_eq]
  first | done | rfl

set_option maxRecDepth 8192 in
set_option maxHeartbeats 4000000 in
theorem A8 (V : Valuation τ sig (Elt F)) :
    after (ops1 (F := F)) V (Proc.devRef .tc main_v8)
      = extractStridedSlice S64x8x20000 ![0, 0, 0] (fA7 (V (Proc.devRef .tc main_arg0)) (V (Proc.devRef .tc main_arg2)) (V (Proc.devRef .tc main_arg3)) (V (Proc.devRef .tc main_arg4)) (V (Proc.devRef .tc main_arg5)) (V (Proc.devRef .tc main_arg6))) slices_S64x8x20003_S64x8x20000_0_0_0 := by
  have h := A7 (F := F) V
  revert h
  unfold fA7
  eval_results
  intro h
  rw [h]

def fB (y7 : (⟨S64x8x20003, .f32⟩ : BufTy).Contents (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F)) : (⟨S64x8x20000, .f32⟩ : BufTy).Contents (Elt F) :=
  (addf (broadcastInDim S64x8x20000 ![0, 1, 2] bcast_S64x8x1_S64x8x20000_0_1_2 (broadcastInDim S64x8x1 ![0, 1] bcast_S64x8_S64x8x1_0_1 (shapeCast _ (extractStridedSlice S64x8x1 ![0, 0, 20000] y7 slices_S64x8x20003_S64x8x1_0_0_20000) shapeCasts_S64x8x1_S64x8))) ((subf (subf ((addf (Host.dotGeneral dot_S64x8x256_S20000x256_S64x8x20000_2_1_01_0_n_n none (Host.dotGeneral dot_S64x8x1024_S256x1024_S64x8x256_2_1_01_0_n_n none x0 x9) x7) (broadcastInDim S64x8x20000 ![0, 1, 2] bcast_S1x1x20000_S64x8x20000_0_1_2 (broadcastInDim S1x1x20000 ![2] bcast_S20000_S1x1x20000_2 x8)))) (broadcastInDim S64x8x20000 ![0, 1, 2] bcast_S64x8x1_S64x8x20000_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x256_S20000x256_S64x8x20000_2_1_01_0_n_n none (Host.dotGeneral dot_S64x8x1024_S256x1024_S64x8x256_2_1_01_0_n_n none x0 x9) x7) (broadcastInDim S64x8x20000 ![0, 1, 2] bcast_S1x1x20000_S64x8x20000_0_1_2 (broadcastInDim S1x1x20000 ![2] bcast_S20000_S1x1x20000_2 x8)))) (constant S_ .f32 0xFF800000#32) reducesTo_S64x8x20000_S64x8_d2 h_S_))))) (broadcastInDim S64x8x20000 ![0, 1, 2] bcast_S64x8x1_S64x8x20000_0_1_2 (Host.log (broadcastInDim S64x8x1 ![0, 1] bcast_S64x8_S64x8x1_0_1 (Host.reduceAdd (Host.exp (subf ((addf (Host.dotGeneral dot_S64x8x256_S20000x256_S64x8x20000_2_1_01_0_n_n none (Host.dotGeneral dot_S64x8x1024_S256x1024_S64x8x256_2_1_01_0_n_n none x0 x9) x7) (broadcastInDim S64x8x20000 ![0, 1, 2] bcast_S1x1x20000_S64x8x20000_0_1_2 (broadcastInDim S1x1x20000 ![2] bcast_S20000_S1x1x20000_2 x8)))) (broadcastInDim S64x8x20000 ![0, 1, 2] bcast_S64x8x1_S64x8x20000_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x256_S20000x256_S64x8x20000_2_1_01_0_n_n none (Host.dotGeneral dot_S64x8x1024_S256x1024_S64x8x256_2_1_01_0_n_n none x0 x9) x7) (broadcastInDim S64x8x20000 ![0, 1, 2] bcast_S1x1x20000_S64x8x20000_0_1_2 (broadcastInDim S1x1x20000 ![2] bcast_S20000_S1x1x20000_2 x8)))) (constant S_ .f32 0xFF800000#32) reducesTo_S64x8x20000_S64x8_d2 h_S_)))))) (constant S_ .f32 0x00000000#32) reducesTo_S64x8x20000_S64x8_d2 h_S_)))))))

set_option maxRecDepth 8192 in
set_option maxHeartbeats 4000000 in
theorem B_out (V : Valuation τ sig (Elt F)) :
    after (ops2 (F := F)) V (Proc.devRef .tc main_v19) = fB (V (Proc.devRef .tc main_v7)) (V (Proc.devRef .tc main_arg0)) (V (Proc.devRef .tc main_arg7)) (V (Proc.devRef .tc main_arg8)) (V (Proc.devRef .tc main_arg9)) := by
  unfold fB
  eval_results
  simp only [TRef.ofBuf, TRef.toBuf, cast_cast]
  repeat rw [cast_eq]
  first | done | rfl

def fC (y7 : (⟨S64x8x20003, .f32⟩ : BufTy).Contents (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F)) : (⟨S64x8x160000, .f32⟩ : BufTy).Contents (Elt F) :=
  (addf (broadcastInDim S64x8x160000 ![0, 1, 2] bcast_S64x8x1_S64x8x160000_0_1_2 (broadcastInDim S64x8x1 ![0, 1] bcast_S64x8_S64x8x1_0_1 (shapeCast _ (extractStridedSlice S64x8x1 ![0, 0, 20001] y7 slices_S64x8x20003_S64x8x1_0_0_20001) shapeCasts_S64x8x1_S64x8))) ((subf (subf ((addf (Host.dotGeneral dot_S64x8x64_S160000x64_S64x8x160000_2_1_01_0_n_n none (Host.dotGeneral dot_S64x8x1024_S64x1024_S64x8x64_2_1_01_0_n_n none x0 x12) x10) (broadcastInDim S64x8x160000 ![0, 1, 2] bcast_S1x1x160000_S64x8x160000_0_1_2 (broadcastInDim S1x1x160000 ![2] bcast_S160000_S1x1x160000_2 x11)))) (broadcastInDim S64x8x160000 ![0, 1, 2] bcast_S64x8x1_S64x8x160000_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x64_S160000x64_S64x8x160000_2_1_01_0_n_n none (Host.dotGeneral dot_S64x8x1024_S64x1024_S64x8x64_2_1_01_0_n_n none x0 x12) x10) (broadcastInDim S64x8x160000 ![0, 1, 2] bcast_S1x1x160000_S64x8x160000_0_1_2 (broadcastInDim S1x1x160000 ![2] bcast_S160000_S1x1x160000_2 x11)))) (constant S_ .f32 0xFF800000#32) reducesTo_S64x8x160000_S64x8_d2 h_S_))))) (broadcastInDim S64x8x160000 ![0, 1, 2] bcast_S64x8x1_S64x8x160000_0_1_2 (Host.log (broadcastInDim S64x8x1 ![0, 1] bcast_S64x8_S64x8x1_0_1 (Host.reduceAdd (Host.exp (subf ((addf (Host.dotGeneral dot_S64x8x64_S160000x64_S64x8x160000_2_1_01_0_n_n none (Host.dotGeneral dot_S64x8x1024_S64x1024_S64x8x64_2_1_01_0_n_n none x0 x12) x10) (broadcastInDim S64x8x160000 ![0, 1, 2] bcast_S1x1x160000_S64x8x160000_0_1_2 (broadcastInDim S1x1x160000 ![2] bcast_S160000_S1x1x160000_2 x11)))) (broadcastInDim S64x8x160000 ![0, 1, 2] bcast_S64x8x1_S64x8x160000_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x64_S160000x64_S64x8x160000_2_1_01_0_n_n none (Host.dotGeneral dot_S64x8x1024_S64x1024_S64x8x64_2_1_01_0_n_n none x0 x12) x10) (broadcastInDim S64x8x160000 ![0, 1, 2] bcast_S1x1x160000_S64x8x160000_0_1_2 (broadcastInDim S1x1x160000 ![2] bcast_S160000_S1x1x160000_2 x11)))) (constant S_ .f32 0xFF800000#32) reducesTo_S64x8x160000_S64x8_d2 h_S_)))))) (constant S_ .f32 0x00000000#32) reducesTo_S64x8x160000_S64x8_d2 h_S_)))))))

set_option maxRecDepth 8192 in
set_option maxHeartbeats 4000000 in
theorem C_out (V : Valuation τ sig (Elt F)) :
    after (ops3 (F := F)) V (Proc.devRef .tc main_v30) = fC (V (Proc.devRef .tc main_v7)) (V (Proc.devRef .tc main_arg0)) (V (Proc.devRef .tc main_arg10)) (V (Proc.devRef .tc main_arg11)) (V (Proc.devRef .tc main_arg12)) := by
  unfold fC
  eval_results
  simp only [TRef.ofBuf, TRef.toBuf, cast_cast]
  repeat rw [cast_eq]
  first | done | rfl

def fD (y7 : (⟨S64x8x20003, .f32⟩ : BufTy).Contents (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F)) : (⟨S64x8x67735, .f32⟩ : BufTy).Contents (Elt F) :=
  (addf (broadcastInDim S64x8x67735 ![0, 1, 2] bcast_S64x8x1_S64x8x67735_0_1_2 (broadcastInDim S64x8x1 ![0, 1] bcast_S64x8_S64x8x1_0_1 (shapeCast _ (extractStridedSlice S64x8x1 ![0, 0, 20002] y7 slices_S64x8x20003_S64x8x1_0_0_20002) shapeCasts_S64x8x1_S64x8))) ((subf (subf ((addf (Host.dotGeneral dot_S64x8x16_S67735x16_S64x8x67735_2_1_01_0_n_n none (Host.dotGeneral dot_S64x8x1024_S16x1024_S64x8x16_2_1_01_0_n_n none x0 x15) x13) (broadcastInDim S64x8x67735 ![0, 1, 2] bcast_S1x1x67735_S64x8x67735_0_1_2 (broadcastInDim S1x1x67735 ![2] bcast_S67735_S1x1x67735_2 x14)))) (broadcastInDim S64x8x67735 ![0, 1, 2] bcast_S64x8x1_S64x8x67735_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x16_S67735x16_S64x8x67735_2_1_01_0_n_n none (Host.dotGeneral dot_S64x8x1024_S16x1024_S64x8x16_2_1_01_0_n_n none x0 x15) x13) (broadcastInDim S64x8x67735 ![0, 1, 2] bcast_S1x1x67735_S64x8x67735_0_1_2 (broadcastInDim S1x1x67735 ![2] bcast_S67735_S1x1x67735_2 x14)))) (constant S_ .f32 0xFF800000#32) reducesTo_S64x8x67735_S64x8_d2 h_S_))))) (broadcastInDim S64x8x67735 ![0, 1, 2] bcast_S64x8x1_S64x8x67735_0_1_2 (Host.log (broadcastInDim S64x8x1 ![0, 1] bcast_S64x8_S64x8x1_0_1 (Host.reduceAdd (Host.exp (subf ((addf (Host.dotGeneral dot_S64x8x16_S67735x16_S64x8x67735_2_1_01_0_n_n none (Host.dotGeneral dot_S64x8x1024_S16x1024_S64x8x16_2_1_01_0_n_n none x0 x15) x13) (broadcastInDim S64x8x67735 ![0, 1, 2] bcast_S1x1x67735_S64x8x67735_0_1_2 (broadcastInDim S1x1x67735 ![2] bcast_S67735_S1x1x67735_2 x14)))) (broadcastInDim S64x8x67735 ![0, 1, 2] bcast_S64x8x1_S64x8x67735_0_1_2 (broadcastInDim S64x8x1 ![0, 1] bcast_S64x8_S64x8x1_0_1 (maximumf (broadcastInDim S64x8 ![] bcast_S_S64x8 (constant S_ .f32 0xFF800000#32)) (Host.reduce FloatOps.maximumf ((addf (Host.dotGeneral dot_S64x8x16_S67735x16_S64x8x67735_2_1_01_0_n_n none (Host.dotGeneral dot_S64x8x1024_S16x1024_S64x8x16_2_1_01_0_n_n none x0 x15) x13) (broadcastInDim S64x8x67735 ![0, 1, 2] bcast_S1x1x67735_S64x8x67735_0_1_2 (broadcastInDim S1x1x67735 ![2] bcast_S67735_S1x1x67735_2 x14)))) (constant S_ .f32 0xFF800000#32) reducesTo_S64x8x67735_S64x8_d2 h_S_)))))) (constant S_ .f32 0x00000000#32) reducesTo_S64x8x67735_S64x8_d2 h_S_)))))))

set_option maxRecDepth 8192 in
set_option maxHeartbeats 4000000 in
theorem D_out (V : Valuation τ sig (Elt F)) :
    after (ops4 (F := F)) V (Proc.devRef .tc main_v41) = fD (V (Proc.devRef .tc main_v7)) (V (Proc.devRef .tc main_arg0)) (V (Proc.devRef .tc main_arg13)) (V (Proc.devRef .tc main_arg14)) (V (Proc.devRef .tc main_arg15)) := by
  unfold fD
  eval_results
  simp only [TRef.ofBuf, TRef.toBuf, cast_cast]
  repeat rw [cast_eq]
  first | done | rfl

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

-- A stretch leaves a buffer it does not write as it found it.
theorem A_keeps (V : Valuation τ sig (Elt F)) : ∀ r ∈ ([main_arg0, main_arg1, main_arg7, main_arg8, main_arg9, main_arg10, main_arg11, main_arg12, main_arg13, main_arg14, main_arg15] : List (Ref sig .tc)),
    after (ops1 (F := F)) V (Proc.devRef .tc r) = V (Proc.devRef .tc r) := by
  intro r hr; fin_cases hr <;> eval_results
theorem B_keeps (V : Valuation τ sig (Elt F)) : ∀ r ∈ ([main_v7, main_v8, main_arg0, main_arg1, main_arg10, main_arg11, main_arg12, main_arg13, main_arg14, main_arg15] : List (Ref sig .tc)),
    after (ops2 (F := F)) V (Proc.devRef .tc r) = V (Proc.devRef .tc r) := by
  intro r hr; fin_cases hr <;> eval_results
theorem C_keeps (V : Valuation τ sig (Elt F)) : ∀ r ∈ ([main_v7, main_v8, main_v19, main_arg0, main_arg1, main_arg13, main_arg14, main_arg15] : List (Ref sig .tc)),
    after (ops3 (F := F)) V (Proc.devRef .tc r) = V (Proc.devRef .tc r) := by
  intro r hr; fin_cases hr <;> eval_results
theorem D_keeps (V : Valuation τ sig (Elt F)) : ∀ r ∈ ([main_v8, main_v19, main_v30, main_arg1] : List (Ref sig .tc)),
    after (ops4 (F := F)) V (Proc.devRef .tc r) = V (Proc.devRef .tc r) := by
  intro r hr; fin_cases hr <;> eval_results

def lossF (out : (⟨S64x8x267735, .f32⟩ : BufTy).Contents (Elt F)) (target : (⟨S64x8, .i32⟩ : BufTy).Contents (Elt F)) : (⟨S_, .f32⟩ : BufTy).Contents (Elt F) :=
  Host.negf (Host.divf (Host.reduceAdd (shapeCast _ (select (Host.reduce IntOp.andi (andi (cmpi .sge (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1) (broadcastInDim S64x8x1x1 ![] bcast_S_S64x8x1x1 (constantI S_ 32 0#32))) (cmpi .sle (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1) (broadcastInDim S64x8x1x1 ![0, 1, 2, 3] bcast_S1x1x1x1_S64x8x1x1_0_1_2_3 (broadcastInDim S1x1x1x1 ![3] bcast_S1_S1x1x1x1_3 (constantI S1 32 267734#32))))) (constantI S_ 1 1#1) reducesTo_S64x8x1x1_S64x8x1_d3 h_S_) (Host.gather gather_S64x8x267735_S64x8x1x1_S64x8x1_n_2_01_01_2_3_111 out (shapeCast _ (select (cmpi .slt (broadcastInDim S64x8x1 ![0, 1] bcast_S64x8_S64x8x1_0_1 target) (broadcastInDim S64x8x1 ![] bcast_S_S64x8x1 (constantI S_ 32 0#32))) (addi (broadcastInDim S64x8x1 ![0, 1] bcast_S64x8_S64x8x1_0_1 target) (broadcastInDim S64x8x1 ![] bcast_S_S64x8x1 (constantI S_ 32 267735#32))) (broadcastInDim S64x8x1 ![0, 1] bcast_S64x8_S64x8x1_0_1 target)) shapeCasts_S64x8x1_S64x8x1x1)) (broadcastInDim S64x8x1 ![] bcast_S_S64x8x1 (constant S_ .f32 0x7FC00000#32))) shapeCasts_S64x8x1_S64x8) (constant S_ .f32 0x00000000#32) reducesTo_S64x8_S_d0_1 h_S_) (constant S_ .f32 0x44000000#32))

set_option maxRecDepth 8192 in
set_option maxHeartbeats 4000000 in
theorem E1_42 (V : Valuation τ sig (Elt F)) :
    after (ops5 (F := F)) V (Proc.devRef .tc main_v42) = concatenate S64x8x267735 2 [⟨S64x8x20000, V (Proc.devRef .tc main_v8)⟩, ⟨S64x8x20000, V (Proc.devRef .tc main_v19)⟩, ⟨S64x8x160000, V (Proc.devRef .tc main_v30)⟩, ⟨S64x8x67735, V (Proc.devRef .tc main_v41)⟩] concatenates_S64x8x20000_S64x8x20000_S64x8x160000_S64x8x67735_S64x8x267735_d2 := by
  eval_results
  first | done | rfl

theorem E1_keeps (V : Valuation τ sig (Elt F)) : ∀ r ∈ ([main_arg1] : List (Ref sig .tc)),
    after (ops5 (F := F)) V (Proc.devRef .tc r) = V (Proc.devRef .tc r) := by
  intro r hr; fin_cases hr <;> eval_results
theorem E2_keeps (V : Valuation τ sig (Elt F)) : ∀ r ∈ ([main_v42] : List (Ref sig .tc)),
    after (ops6 (F := F)) V (Proc.devRef .tc r) = V (Proc.devRef .tc r) := by
  intro r hr; fin_cases hr <;> eval_results

set_option maxRecDepth 8192 in
set_option maxHeartbeats 4000000 in
theorem E2_48 (V : Valuation τ sig (Elt F)) :
    after (ops6 (F := F)) V (Proc.devRef .tc main_v48) = lossF (V (Proc.devRef .tc main_v42)) (V (Proc.devRef .tc main_arg1)) := by
  unfold lossF
  eval_results
  try simp only [TRef.ofBuf, TRef.toBuf, cast_cast]
  repeat rw [cast_eq]
  first | done | rfl

theorem concat4_congr' {α : Type _} {t : Shape} {a : Fin t.rank} {s1 s2 s3 s4 : Shape}
    {x1 y1 : s1.Idx → α} {x2 y2 : s2.Idx → α} {x3 y3 : s3.Idx → α} {x4 y4 : s4.Idx → α}
    (h : Shape.Concatenates [s1, s2, s3, s4] t a)
    (e1 : x1 = y1) (e2 : x2 = y2) (e3 : x3 = y3) (e4 : x4 = y4) :
    concatenate t a [⟨s1, x1⟩, ⟨s2, x2⟩, ⟨s3, x3⟩, ⟨s4, x4⟩] h
      = concatenate t a [⟨s1, y1⟩, ⟨s2, y2⟩, ⟨s3, y3⟩, ⟨s4, y4⟩] h := by
  subst e1 e2 e3 e4; rfl

set_option maxRecDepth 8192 in
set_option maxHeartbeats 4000000 in
-- Each piece of the output is its stretch's function of the arguments, the earlier stretches' results passing through unchanged.
theorem pre_main_v42 (m : (ℓ : Loc nD τ sig) → Buf (Elt F) ℓ) (c : Dev nD) :
    after (ops5 (F := F)) (after ops4 (after ops3 (after ops2 (after ops1 (launchContents m c))))) (Proc.devRef .tc main_v42) = res_main_v42 m c := by
  rw [E1_42]
  unfold res_main_v42
  refine concat4_congr' _ ?_ ?_ ?_ ?_
  · rw [D_keeps _ main_v8 (by decide), C_keeps _ main_v8 (by decide), B_keeps _ main_v8 (by decide), A8]
    unfold fA7
    with_reducible rfl
  · rw [D_keeps _ main_v19 (by decide), C_keeps _ main_v19 (by decide), B_out, A7, A_keeps _ main_arg0 (by decide), A_keeps _ main_arg7 (by decide), A_keeps _ main_arg8 (by decide), A_keeps _ main_arg9 (by decide)]
    unfold fB fA7
    with_reducible rfl
  · rw [D_keeps _ main_v30 (by decide), C_out, B_keeps _ main_v7 (by decide), A7, B_keeps _ main_arg0 (by decide), A_keeps _ main_arg0 (by decide), B_keeps _ main_arg10 (by decide), A_keeps _ main_arg10 (by decide),
      B_keeps _ main_arg11 (by decide), A_keeps _ main_arg11 (by decide), B_keeps _ main_arg12 (by decide), A_keeps _ main_arg12 (by decide)]
    unfold fC fA7
    with_reducible rfl
  · rw [D_out, C_keeps _ main_v7 (by decide), B_keeps _ main_v7 (by decide), A7, C_keeps _ main_arg0 (by decide), B_keeps _ main_arg0 (by decide), A_keeps _ main_arg0 (by decide),
      C_keeps _ main_arg13 (by decide), B_keeps _ main_arg13 (by decide), A_keeps _ main_arg13 (by decide), C_keeps _ main_arg14 (by decide), B_keeps _ main_arg14 (by decide), A_keeps _ main_arg14 (by decide),
      C_keeps _ main_arg15 (by decide), B_keeps _ main_arg15 (by decide), A_keeps _ main_arg15 (by decide)]
    unfold fD fA7
    with_reducible rfl

theorem after_main_v42 (m : (ℓ : Loc nD τ sig) → Buf (Elt F) ℓ) (c : Dev nD) :
    after (ops (F := F)) (launchContents m c) (Proc.devRef .tc main_v42) = res_main_v42 m c := by
  rw [ops_split, after_app, after_app, after_app, after_app, after_app]
  rw [E2_keeps _ main_v42 (by decide)]
  exact pre_main_v42 m c

set_option maxRecDepth 8192 in
set_option maxHeartbeats 4000000 in
theorem after_main_v48 (m : (ℓ : Loc nD τ sig) → Buf (Elt F) ℓ) (c : Dev nD) :
    after (ops (F := F)) (launchContents m c) (Proc.devRef .tc main_v48) = res_main_v48 m c := by
  rw [ops_split, after_app, after_app, after_app, after_app, after_app]
  rw [E2_48, pre_main_v42, E1_keeps _ main_arg1 (by decide), D_keeps _ main_arg1 (by decide), C_keeps _ main_arg1 (by decide), B_keeps _ main_arg1 (by decide), A_keeps _ main_arg1 (by decide)]
  unfold lossF res_main_v48 res_main_v42
  with_reducible rfl

set_option maxRecDepth 8192 in
set_option maxHeartbeats 51200000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = res_main_v42 m c
      ∧ r.2.mem ((c.tc : Thread nD τ).loc main_v48) = res_main_v48 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v42).trans (after_main_v42 m c), (h c main_v48).trans (after_main_v48 m c),
      by and_intros <;> exact (h c _).trans (by after_results_simp <;> rfl)⟩)
    (run_seq scopedRefs_eq scopedSems_eq defs main (fun _ => ops) main_eq (fun _ => ops_sub) m ρ)

end Cert.ReferenceIdeal.ValueP

end
-- ==== Proof.Ref.Args.lean ====
import proofs.«411270_j76149770158357_2_alg».proof.ReferenceIdeal
import proofs.«411270_j76149770158357_2_alg».proof.Proof.Model

noncomputable section

namespace Cert.ReferenceIdeal.ValR

open Cert.ReferenceIdeal Idealize.ShloMosaic Idealize.ShloMosaic.TcCoe Idealize.SL.Sem

noncomputable def argsOf (m : (ℓ : Loc nD τ sig) → Buf (Elt Ideal) ℓ) (c : Dev nD) : Cert.Model.Args where
  hidden := m ((c.tc : Thread nD τ).loc main_arg0)
  cw := m ((c.tc : Thread nD τ).loc main_arg2)
  cb := m ((c.tc : Thread nD τ).loc main_arg3)
  W0 := m ((c.tc : Thread nD τ).loc main_arg4)
  b0 := m ((c.tc : Thread nD τ).loc main_arg5)
  P0 := m ((c.tc : Thread nD τ).loc main_arg6)
  W1 := m ((c.tc : Thread nD τ).loc main_arg7)
  b1 := m ((c.tc : Thread nD τ).loc main_arg8)
  P1 := m ((c.tc : Thread nD τ).loc main_arg9)
  W2 := m ((c.tc : Thread nD τ).loc main_arg10)
  b2 := m ((c.tc : Thread nD τ).loc main_arg11)
  P2 := m ((c.tc : Thread nD τ).loc main_arg12)
  W3 := m ((c.tc : Thread nD τ).loc main_arg13)
  b3 := m ((c.tc : Thread nD τ).loc main_arg14)
  P3 := m ((c.tc : Thread nD τ).loc main_arg15)

end Cert.ReferenceIdeal.ValR

end
-- ==== Proof.Ref.ValHead.lean ====
import proofs.«411270_j76149770158357_2_alg».proof.Proof.Ref.Read
import proofs.«411270_j76149770158357_2_alg».proof.Proof.Ref.Args
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ValR

open Cert.ReferenceIdeal Cert.ReferenceIdeal.Gen Cert.ReferenceIdeal.ReadP Cert.Model Cert.Spec
open Idealize.ShloMosaic Idealize.ShloMosaic.TcCoe Idealize.ShloMosaic.ValueIdx Idealize.SL.Sem

-- The index (s, b) with k put back on the folded axis is (s, b, k).
theorem reduce_max_row {N : ℕ} (y : (⟨3, ![64, 8, N]⟩ : Shape).Idx → EReal) (init : S_.Idx → EReal)
    (h' : (⟨3, ![64, 8, N]⟩ : Shape).ReducesTo [2] S64x8) (h : (⟨3, ![64, 8, N]⟩ : Shape).Reduces [2] S64x8) (hu : 0 < S_.numel)
    (hinit : init (Shape.Idx.first hu) = ⊥) (s : Fin 64) (b : Fin 8) :
    Host.reduce (FloatOps.maximumf (F := Ideal) (φ := .f32)) y init h' hu (ix2 s b) = vmax fun k : Fin N => y (ix3 s b k) := by
  rw [Host.reduce_eq_fold_single _ y init h' h hu, hinit]
  exact congrArg (fun f => Finset.fold max (⊥ : EReal) f Finset.univ) (funext fun k => congrArg y (eq_ix3 _))

theorem ofBits_neg_inf : Ideal.ofBits .f32 0xFF800000#32 = (⊥ : EReal) := by simp [Ideal.ofBits, Ideal.ieee]

section
variable (x4 : S20000x1024.Idx → EReal) (x2 : S3x1024.Idx → EReal) (hW : Shape.Concatenates [S20000x1024, S3x1024] S20003x1024 0)
  (x5 : S20000.Idx → EReal) (x3 : S3.Idx → EReal) (hb : Shape.Concatenates [S20000, S3] S20003 0)
  (s : Fin 64) (b : Fin 8) (e d k : Fin 1024) (n : Fin 20000) (j : Fin 3) (q : Fin 20003)

theorem catW_left : concatenate S20003x1024 0 [⟨S20000x1024, x4⟩, ⟨S3x1024, x2⟩] hW (ix2 (⟨n.val, by omega⟩ : Fin 20003) k) = x4 (ix2 n k) :=
  concatenate_pair_apply_left 0 x4 x2 hW _ rfl (ix2 n k) (fun b => by fin_cases b <;> rfl)

theorem catW_right : concatenate S20003x1024 0 [⟨S20000x1024, x4⟩, ⟨S3x1024, x2⟩] hW (ix2 (⟨20000 + j.val, by omega⟩ : Fin 20003) k) = x2 (ix2 j k) :=
  concatenate_pair_apply_right 0 x4 x2 hW _ rfl rfl (ix2 j k) (fun b hb => by fin_cases b <;> first | rfl | exact absurd rfl hb)
    (Nat.add_comm _ _)

theorem catb_left : concatenate S20003 0 [⟨S20000, x5⟩, ⟨S3, x3⟩] hb (ix1 (⟨n.val, by omega⟩ : Fin 20003)) = x5 (ix1 n) :=
  concatenate_pair_apply_left 0 x5 x3 hb _ rfl (ix1 n) (fun b => by fin_cases b; rfl)

theorem catb_right : concatenate S20003 0 [⟨S20000, x5⟩, ⟨S3, x3⟩] hb (ix1 (⟨20000 + j.val, by omega⟩ : Fin 20003)) = x3 (ix1 j) :=
  concatenate_pair_apply_right 0 x5 x3 hb _ rfl rfl (ix1 j) (fun b hb => by fin_cases b; exact absurd rfl hb) (Nat.add_comm _ _)

theorem lidx2 : lidx_main_v2 (ix3 s b e) d = ix3 s b d := eq_ix3 _
theorem ridx2 : ridx_main_v2 (ix3 s b e) d = ix2 e d := eq_ix2 _
theorem lidx3 : lidx_main_v3 (ix3 s b q) k = ix3 s b k := eq_ix3 _
theorem ridx3 : ridx_main_v3 (ix3 s b q) k = ix2 q k := eq_ix2 _
theorem idx45 : idx_main_v4 (idx_main_v5 (ix3 s b q)) = ix1 q := eq_ix1 _
theorem idxc34 : idx_main_call0_v3 (idx_main_call0_v4 (ix3 s b q)) = ix2 s b := eq_ix2 _
theorem idxc810 : idx_main_call0_v8 (idx_main_call0_v10 (ix3 s b q)) = ix2 s b := eq_ix2 _
theorem idxc7 : idx_main_call0_v7 (ix2 s b) q = ix3 s b q := eq_ix3 _
theorem idx8 : idx_main_v8 (ix3 s b n) = ix3 s b (⟨n.val, by omega⟩ : Fin 20003) := eq_ix3 _
end

variable (A : Cert.Model.Args)

section
variable (s : Fin 64) (b : Fin 8)

def headRow : Fin 20003 → EReal :=
  fun n => val_main_v6 (F := Ideal) A.hidden A.cw A.cb A.W0 A.b0 A.P0 (ix3 s b n)

theorem ref_proj (e : Fin 1024) :
    val_main_v2 (F := Ideal) A.hidden A.P0 (ix3 s b e) = proj (hflat A.hidden) (mat A.P0) (tok s b) e := by
  rw [val_main_v2_apply]
  exact Finset.sum_congr rfl fun d _ => by rw [lidx2, ridx2, hflat_tok]; rfl

-- The concatenated row at any position: the projected token against that row of the joined weight, plus the joined bias.
theorem headRow_eq (q : Fin 20003) : headRow A s b q = (∑ k : Fin 1024, proj (hflat A.hidden) (mat A.P0) (tok s b) k
    * val_main_v0 (F := Ideal) A.cw A.W0 (ix2 q k)) + val_main_v1 (F := Ideal) A.cb A.b0 (ix1 q) := by
  unfold headRow
  rw [val_main_v6_apply, val_main_v3_apply, val_main_v5_apply, val_main_v4_apply, idx45, Ideal.addf_def]
  simp only [lidx3, ridx3, ref_proj]

theorem headRow_words (n : Fin 20000) : headRow A s b (⟨n.val, by omega⟩ : Fin 20003) = Lw A (tok s b) n := by
  rw [headRow_eq]
  unfold val_main_v1 val_main_v0
  simp only [catb_left, catW_left]
  rfl

theorem headRow_clus (j : Fin 3) : headRow A s b (⟨20000 + j.val, by omega⟩ : Fin 20003) = Lc A (tok s b) j := by
  rw [headRow_eq]
  unfold val_main_v1 val_main_v0
  simp only [catb_right, catW_right]
  rfl

theorem headRow_isReal (hA : A.IsReal) : IsReal (headRow A s b) := by
  intro n
  by_cases hn : n.val < 20000
  · rw [show n = (⟨(⟨n.val, hn⟩ : Fin 20000).val, by omega⟩ : Fin 20003) from rfl, headRow_words]
    exact logit_isReal _ _ _ _ (fun _ _ => hA.hidden _) (fun _ _ => hA.P0 _) (fun _ _ => hA.W0 _) (fun _ => hA.b0 _) _ _
  · have hj : n.val - 20000 < 3 := by have := n.isLt; omega
    rw [show n = (⟨20000 + (⟨n.val - 20000, hj⟩ : Fin 3).val, by omega⟩ : Fin 20003) from Fin.ext (by show n.val = 20000 + (n.val - 20000); omega),
      headRow_clus]
    exact logit_isReal _ _ _ _ (fun _ _ => hA.hidden _) (fun _ _ => hA.P0 _) (fun _ _ => hA.cw _) (fun _ => hA.cb _) _ _

theorem ref_lsm (n : Fin 20003) :
    val_main_v7 (F := Ideal) A.hidden A.cw A.cb A.W0 A.b0 A.P0 (ix3 s b n) = rLsm (headRow A s b) n := by
  have hshift : ∀ k : Fin 20003, val_main_call0_v5 (F := Ideal) A.hidden A.cw A.cb A.W0 A.b0 A.P0 (ix3 s b k)
      = headRow A s b k - vmax (headRow A s b) := by
    intro k
    rw [val_main_call0_v5_apply, val_main_call0_v4_apply, val_main_call0_v3_apply, idxc34, val_main_call0_v2_apply,
      show val_main_call0_v0 (F := Ideal) A.hidden A.cw A.cb A.W0 A.b0 A.P0 (ix2 s b) = vmax (headRow A s b) from
        reduce_max_row _ _ _ (by decide) _ ofBits_neg_inf s b,
      val_main_call0_v1_apply, val_main_call0_cst_0_apply, Ideal.maximumf_def, Ideal.ofBits_def, ofBits_neg_inf,
      max_eq_right bot_le, Ideal.subf_def]
    rfl
  rw [val_main_v7_apply, hshift, val_main_call0_v10_apply, val_main_call0_v9_apply, val_main_call0_v8_apply, idxc810,
    val_main_call0_v7_apply, val_main_call0_cst_1_apply, Ideal.ofBits_def, Ideal.ofBits_zero_f32, zero_add, Ideal.subf_def,
    Ideal.hostUnary_log_def]
  simp only [idxc7, val_main_call0_v6_apply, Ideal.hostUnary_exp_def, hshift]
  rfl

end

theorem ref_words (hA : A.IsReal) (s : Fin 64) (b : Fin 8) (n : Fin 20000) :
    (val_main_v8 (F := Ideal) A.hidden A.cw A.cb A.W0 A.b0 A.P0 : S64x8x20000.Idx → EReal) (ix3 s b n) = piece0 A (tok s b) n := by
  rw [val_main_v8_apply, idx8, ref_lsm]
  exact rLsm_append_left (show 20003 = 20000 + 3 from rfl) (by decide) _ _ _ (headRow_words A s b) (headRow_clus A s b)
    (headRow_isReal A s b hA) n

theorem ref_clus (hA : A.IsReal) (s : Fin 64) (b : Fin 8) (j : Fin 3) :
    (val_main_v7 (F := Ideal) A.hidden A.cw A.cb A.W0 A.b0 A.P0 : S64x8x20003.Idx → EReal) (ix3 s b (⟨20000 + j.val, by omega⟩ : Fin 20003)) = clp A j (tok s b) := by
  rw [ref_lsm]
  exact rLsm_append_right (show 20003 = 20000 + 3 from rfl) (by decide) _ _ _ (headRow_words A s b) (headRow_clus A s b)
    (headRow_isReal A s b hA) j

end Cert.ReferenceIdeal.ValR

end
-- ==== Proof.Ref.ValTail1.lean ====
import proofs.«411270_j76149770158357_2_alg».proof.Proof.Ref.Read
import proofs.«411270_j76149770158357_2_alg».proof.Proof.Ref.Args
import proofs.«411270_j76149770158357_2_alg».proof.Proof.Ref.ValHead
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ValR

open Cert.ReferenceIdeal Cert.ReferenceIdeal.Gen Cert.ReferenceIdeal.ReadP Cert.Model Cert.Spec
open Idealize.ShloMosaic Idealize.ShloMosaic.TcCoe Idealize.ShloMosaic.ValueIdx Idealize.SL.Sem

variable (A : Cert.Model.Args)

namespace Tail1

variable (s : Fin 64) (b : Fin 8) (n : Fin 20000) (e : Fin 256) (d : Fin 1024)

theorem lidx_proj : lidx_main_v9 (ix3 s b e) d = ix3 s b d := eq_ix3 _
theorem ridx_proj : ridx_main_v9 (ix3 s b e) d = ix2 e d := eq_ix2 _
theorem lidx_score : lidx_main_v10 (ix3 s b n) e = ix3 s b e := eq_ix3 _
theorem ridx_score : ridx_main_v10 (ix3 s b n) e = ix2 n e := eq_ix2 _
theorem idx_bias : idx_main_v11 (idx_main_v12 (ix3 s b n)) = ix1 n := eq_ix1 _
theorem idx_rowmax : idx_main_call1_v3 (idx_main_call1_v4 (ix3 s b n)) = ix2 s b := eq_ix2 _
theorem idx_rowsum : idx_main_call1_v8 (idx_main_call1_v10 (ix3 s b n)) = ix2 s b := eq_ix2 _
theorem idx_term : idx_main_call1_v7 (ix2 s b) n = ix3 s b n := eq_ix3 _

-- Token `8 s + b` flattened back is position `s`, batch row `b`.
theorem idx_head : idx_main_v15 (idx_main_v16 (idx_main_v17 (idx_main_v18 (ix3 s b n))))
    = ix3 s b (⟨20000 + (0 : Fin 3).val, by omega⟩ : Fin 20003) := by
  have hb := b.isLt
  refine (eq_ix3 _).trans (congrArg₂ (ix3 · · _) (Fin.ext ?_) (Fin.ext ?_))
  · show (s.val * 8 + b.val) / 8 = s.val; omega
  · show (s.val * 8 + b.val) / 1 % 8 = b.val; omega

theorem ref_logit : (val_main_v13 (F := Ideal) A.hidden A.W1 A.b1 A.P1 : S64x8x20000.Idx → EReal) (ix3 s b n) = L1 A (tok s b) n := by
  rw [val_main_v13_apply, val_main_v10_apply, val_main_v12_apply, val_main_v11_apply]
  simp only [val_main_v9_apply, lidx_score, ridx_score, lidx_proj, ridx_proj, idx_bias, Ideal.addf_def, L1, logit, proj,
    hflat_tok, mat, vec]

theorem ref_rowmax : (val_main_call1_v0 (F := Ideal) A.hidden A.W1 A.b1 A.P1 : S64x8.Idx → EReal) (ix2 s b) = vmax (L1 A (tok s b)) :=
  (reduce_max_row _ _ _ (by decide) _ ofBits_neg_inf s b).trans (congrArg vmax (funext (ref_logit A s b)))

theorem ref_shift : (val_main_call1_v5 (F := Ideal) A.hidden A.W1 A.b1 A.P1 : S64x8x20000.Idx → EReal) (ix3 s b n)
    = L1 A (tok s b) n - vmax (L1 A (tok s b)) := by
  rw [val_main_call1_v5_apply, val_main_call1_v4_apply, val_main_call1_v3_apply, val_main_call1_v2_apply,
    val_main_call1_v1_apply, val_main_call1_cst_0_apply, idx_rowmax, ref_rowmax, ref_logit,
    Ideal.subf_def, Ideal.maximumf_def, Ideal.ofBits_def, ofBits_neg_inf, max_eq_right bot_le]

theorem ref_lsm : (val_main_v14 (F := Ideal) A.hidden A.W1 A.b1 A.P1 : S64x8x20000.Idx → EReal) (ix3 s b n) = rLsm (L1 A (tok s b)) n := by
  rw [val_main_v14_apply, val_main_call1_v10_apply, val_main_call1_v9_apply, val_main_call1_v8_apply, idx_rowsum,
    val_main_call1_v7_apply, val_main_call1_cst_1_apply, Ideal.ofBits_def, Ideal.ofBits_zero_f32, zero_add, ref_shift,
    Ideal.subf_def, Ideal.hostUnary_log_def]
  simp only [idx_term, val_main_call1_v6_apply, ref_shift, Ideal.hostUnary_exp_def]
  rfl

end Tail1

theorem ref_tail1 (hA : A.IsReal) (s : Fin 64) (b : Fin 8) (n : Fin 20000) :
    (val_main_v19 (F := Ideal) A.hidden A.cw A.cb A.W0 A.b0 A.P0 A.W1 A.b1 A.P1 : S64x8x20000.Idx → EReal) (ix3 s b n) = piece1 A (tok s b) n := by
  rw [val_main_v19_apply, val_main_v18_apply, val_main_v17_apply, val_main_v16_apply, val_main_v15_apply, Tail1.idx_head,
    ref_clus A hA s b (0 : Fin 3), Tail1.ref_lsm, Ideal.addf_def]
  exact add_rLsm_eq n.pos _ (logit_isReal _ _ _ _ (fun _ _ => hA.hidden _) (fun _ _ => hA.P1 _) (fun _ _ => hA.W1 _)
    (fun _ => hA.b1 _) _) (clp A 0 (tok s b)) n

end Cert.ReferenceIdeal.ValR

end
-- ==== Proof.Ref.ValTail2.lean ====
import proofs.«411270_j76149770158357_2_alg».proof.Proof.Ref.Read
import proofs.«411270_j76149770158357_2_alg».proof.Proof.Ref.Args
import proofs.«411270_j76149770158357_2_alg».proof.Proof.Ref.ValHead
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ValR

open Cert.ReferenceIdeal Cert.ReferenceIdeal.Gen Cert.ReferenceIdeal.ReadP Cert.Model Cert.Spec
open Idealize.ShloMosaic Idealize.ShloMosaic.TcCoe Idealize.ShloMosaic.ValueIdx Idealize.SL.Sem

variable (A : Cert.Model.Args)

namespace Tail2

variable (s : Fin 64) (b : Fin 8) (n : Fin 160000) (e : Fin 64) (d : Fin 1024)

theorem lidx_proj : lidx_main_v20 (ix3 s b e) d = ix3 s b d := eq_ix3 _
theorem ridx_proj : ridx_main_v20 (ix3 s b e) d = ix2 e d := eq_ix2 _
theorem lidx_score : lidx_main_v21 (ix3 s b n) e = ix3 s b e := eq_ix3 _
theorem ridx_score : ridx_main_v21 (ix3 s b n) e = ix2 n e := eq_ix2 _
theorem idx_bias : idx_main_v22 (idx_main_v23 (ix3 s b n)) = ix1 n := eq_ix1 _
theorem idx_rowmax : idx_main_call2_v3 (idx_main_call2_v4 (ix3 s b n)) = ix2 s b := eq_ix2 _
theorem idx_rowsum : idx_main_call2_v8 (idx_main_call2_v10 (ix3 s b n)) = ix2 s b := eq_ix2 _
theorem idx_term : idx_main_call2_v7 (ix2 s b) n = ix3 s b n := eq_ix3 _

-- Token `8 s + b` flattened back is position `s`, batch row `b`.
theorem idx_head : idx_main_v26 (idx_main_v27 (idx_main_v28 (idx_main_v29 (ix3 s b n))))
    = ix3 s b (⟨20000 + (1 : Fin 3).val, by omega⟩ : Fin 20003) := by
  have hb := b.isLt
  refine (eq_ix3 _).trans (congrArg₂ (ix3 · · _) (Fin.ext ?_) (Fin.ext ?_))
  · show (s.val * 8 + b.val) / 8 = s.val; omega
  · show (s.val * 8 + b.val) / 1 % 8 = b.val; omega

theorem ref_logit : (val_main_v24 (F := Ideal) A.hidden A.W2 A.b2 A.P2 : S64x8x160000.Idx → EReal) (ix3 s b n) = L2 A (tok s b) n := by
  rw [val_main_v24_apply, val_main_v21_apply, val_main_v23_apply, val_main_v22_apply]
  simp only [val_main_v20_apply, lidx_score, ridx_score, lidx_proj, ridx_proj, idx_bias, Ideal.addf_def, L2, logit, proj,
    hflat_tok, mat, vec]

theorem ref_rowmax : (val_main_call2_v0 (F := Ideal) A.hidden A.W2 A.b2 A.P2 : S64x8.Idx → EReal) (ix2 s b) = vmax (L2 A (tok s b)) :=
  (reduce_max_row _ _ _ (by decide) _ ofBits_neg_inf s b).trans (congrArg vmax (funext (ref_logit A s b)))

theorem ref_shift : (val_main_call2_v5 (F := Ideal) A.hidden A.W2 A.b2 A.P2 : S64x8x160000.Idx → EReal) (ix3 s b n)
    = L2 A (tok s b) n - vmax (L2 A (tok s b)) := by
  rw [val_main_call2_v5_apply, val_main_call2_v4_apply, val_main_call2_v3_apply, val_main_call2_v2_apply,
    val_main_call2_v1_apply, val_main_call2_cst_0_apply, idx_rowmax, ref_rowmax, ref_logit,
    Ideal.subf_def, Ideal.maximumf_def, Ideal.ofBits_def, ofBits_neg_inf, max_eq_right bot_le]

theorem ref_lsm : (val_main_v25 (F := Ideal) A.hidden A.W2 A.b2 A.P2 : S64x8x160000.Idx → EReal) (ix3 s b n) = rLsm (L2 A (tok s b)) n := by
  rw [val_main_v25_apply, val_main_call2_v10_apply, val_main_call2_v9_apply, val_main_call2_v8_apply, idx_rowsum,
    val_main_call2_v7_apply, val_main_call2_cst_1_apply, Ideal.ofBits_def, Ideal.ofBits_zero_f32, zero_add, ref_shift,
    Ideal.subf_def, Ideal.hostUnary_log_def]
  simp only [idx_term, val_main_call2_v6_apply, ref_shift, Ideal.hostUnary_exp_def]
  rfl

end Tail2

theorem ref_tail2 (hA : A.IsReal) (s : Fin 64) (b : Fin 8) (n : Fin 160000) :
    (val_main_v30 (F := Ideal) A.hidden A.cw A.cb A.W0 A.b0 A.P0 A.W2 A.b2 A.P2 : S64x8x160000.Idx → EReal) (ix3 s b n) = piece2 A (tok s b) n := by
  rw [val_main_v30_apply, val_main_v29_apply, val_main_v28_apply, val_main_v27_apply, val_main_v26_apply, Tail2.idx_head,
    ref_clus A hA s b (1 : Fin 3), Tail2.ref_lsm, Ideal.addf_def]
  exact add_rLsm_eq n.pos _ (logit_isReal _ _ _ _ (fun _ _ => hA.hidden _) (fun _ _ => hA.P2 _) (fun _ _ => hA.W2 _)
    (fun _ => hA.b2 _) _) (clp A 1 (tok s b)) n

end Cert.ReferenceIdeal.ValR

end
-- ==== Proof.Ref.ValTail3.lean ====
import proofs.«411270_j76149770158357_2_alg».proof.Proof.Ref.Read
import proofs.«411270_j76149770158357_2_alg».proof.Proof.Ref.Args
import proofs.«411270_j76149770158357_2_alg».proof.Proof.Ref.ValHead
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ValR

open Cert.ReferenceIdeal Cert.ReferenceIdeal.Gen Cert.ReferenceIdeal.ReadP Cert.Model Cert.Spec
open Idealize.ShloMosaic Idealize.ShloMosaic.TcCoe Idealize.ShloMosaic.ValueIdx Idealize.SL.Sem

variable (A : Cert.Model.Args)

namespace Tail3

variable (s : Fin 64) (b : Fin 8) (n : Fin 67735) (e : Fin 16) (d : Fin 1024)

theorem lidx_proj : lidx_main_v31 (ix3 s b e) d = ix3 s b d := eq_ix3 _
theorem ridx_proj : ridx_main_v31 (ix3 s b e) d = ix2 e d := eq_ix2 _
theorem lidx_score : lidx_main_v32 (ix3 s b n) e = ix3 s b e := eq_ix3 _
theorem ridx_score : ridx_main_v32 (ix3 s b n) e = ix2 n e := eq_ix2 _
theorem idx_bias : idx_main_v33 (idx_main_v34 (ix3 s b n)) = ix1 n := eq_ix1 _
theorem idx_rowmax : idx_main_call3_v3 (idx_main_call3_v4 (ix3 s b n)) = ix2 s b := eq_ix2 _
theorem idx_rowsum : idx_main_call3_v8 (idx_main_call3_v10 (ix3 s b n)) = ix2 s b := eq_ix2 _
theorem idx_term : idx_main_call3_v7 (ix2 s b) n = ix3 s b n := eq_ix3 _

-- Token `8 s + b` flattened back is position `s`, batch row `b`.
theorem idx_head : idx_main_v37 (idx_main_v38 (idx_main_v39 (idx_main_v40 (ix3 s b n))))
    = ix3 s b (⟨20000 + (2 : Fin 3).val, by omega⟩ : Fin 20003) := by
  have hb := b.isLt
  refine (eq_ix3 _).trans (congrArg₂ (ix3 · · _) (Fin.ext ?_) (Fin.ext ?_))
  · show (s.val * 8 + b.val) / 8 = s.val; omega
  · show (s.val * 8 + b.val) / 1 % 8 = b.val; omega

theorem ref_logit : (val_main_v35 (F := Ideal) A.hidden A.W3 A.b3 A.P3 : S64x8x67735.Idx → EReal) (ix3 s b n) = L3 A (tok s b) n := by
  rw [val_main_v35_apply, val_main_v32_apply, val_main_v34_apply, val_main_v33_apply]
  simp only [val_main_v31_apply, lidx_score, ridx_score, lidx_proj, ridx_proj, idx_bias, Ideal.addf_def, L3, logit, proj,
    hflat_tok, mat, vec]

theorem ref_rowmax : (val_main_call3_v0 (F := Ideal) A.hidden A.W3 A.b3 A.P3 : S64x8.Idx → EReal) (ix2 s b) = vmax (L3 A (tok s b)) :=
  (reduce_max_row _ _ _ (by decide) _ ofBits_neg_inf s b).trans (congrArg vmax (funext (ref_logit A s b)))

theorem ref_shift : (val_main_call3_v5 (F := Ideal) A.hidden A.W3 A.b3 A.P3 : S64x8x67735.Idx → EReal) (ix3 s b n)
    = L3 A (tok s b) n - vmax (L3 A (tok s b)) := by
  rw [val_main_call3_v5_apply, val_main_call3_v4_apply, val_main_call3_v3_apply, val_main_call3_v2_apply,
    val_main_call3_v1_apply, val_main_call3_cst_0_apply, idx_rowmax, ref_rowmax, ref_logit,
    Ideal.subf_def, Ideal.maximumf_def, Ideal.ofBits_def, ofBits_neg_inf, max_eq_right bot_le]

theorem ref_lsm : (val_main_v36 (F := Ideal) A.hidden A.W3 A.b3 A.P3 : S64x8x67735.Idx → EReal) (ix3 s b n) = rLsm (L3 A (tok s b)) n := by
  rw [val_main_v36_apply, val_main_call3_v10_apply, val_main_call3_v9_apply, val_main_call3_v8_apply, idx_rowsum,
    val_main_call3_v7_apply, val_main_call3_cst_1_apply, Ideal.ofBits_def, Ideal.ofBits_zero_f32, zero_add, ref_shift,
    Ideal.subf_def, Ideal.hostUnary_log_def]
  simp only [idx_term, val_main_call3_v6_apply, ref_shift, Ideal.hostUnary_exp_def]
  rfl

end Tail3

theorem ref_tail3 (hA : A.IsReal) (s : Fin 64) (b : Fin 8) (n : Fin 67735) :
    (val_main_v41 (F := Ideal) A.hidden A.cw A.cb A.W0 A.b0 A.P0 A.W3 A.b3 A.P3 : S64x8x67735.Idx → EReal) (ix3 s b n) = piece3 A (tok s b) n := by
  rw [val_main_v41_apply, val_main_v40_apply, val_main_v39_apply, val_main_v38_apply, val_main_v37_apply, Tail3.idx_head,
    ref_clus A hA s b (2 : Fin 3), Tail3.ref_lsm, Ideal.addf_def]
  exact add_rLsm_eq n.pos _ (logit_isReal _ _ _ _ (fun _ _ => hA.hidden _) (fun _ _ => hA.P3 _) (fun _ _ => hA.W3 _)
    (fun _ => hA.b3 _) _) (clp A 2 (tok s b)) n

end Cert.ReferenceIdeal.ValR

end
-- ==== Proof.Ref.ValOut.lean ====
import proofs.«411270_j76149770158357_2_alg».proof.Proof.Ref.Read
import proofs.«411270_j76149770158357_2_alg».proof.Proof.Ref.RunProof
import proofs.«411270_j76149770158357_2_alg».proof.Proof.Ref.Args
import proofs.«411270_j76149770158357_2_alg».proof.Proof.Ref.ValHead
import proofs.«411270_j76149770158357_2_alg».proof.Proof.Ref.ValTail1
import proofs.«411270_j76149770158357_2_alg».proof.Proof.Ref.ValTail2
import proofs.«411270_j76149770158357_2_alg».proof.Proof.Ref.ValTail3
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ValR

open Cert.ReferenceIdeal Cert.ReferenceIdeal.Gen Cert.ReferenceIdeal.ReadP Cert.Model Cert.Spec
open Idealize.ShloMosaic Idealize.ShloMosaic.TcCoe Idealize.ShloMosaic.ValueIdx Idealize.SL.Sem

-- The column's span names the piece of the concatenation, and each piece is the model's.
theorem ref_out (m : (ℓ : Loc nD τ sig) → Buf (Elt Ideal) ℓ) (c : Dev nD) (hA : (argsOf m c).IsReal) (s : Fin 64) (b : Fin 8) (n : Fin 267735) :
    (Cert.ReferenceIdeal.ValueP.res_main_v42 (F := Ideal) m c : S64x8x267735.Idx → EReal) (ix3 s b n) = outAt (argsOf m c) (tok s b) n := by
  rw [val_main_v42_eq]
  unfold val_main_v42 outAt
  by_cases h0 : n.val < 20000
  · rw [dif_pos h0]
    exact (concatenate_apply_piece (2 : Fin S64x8x267735.rank) _ _ (ix3 s b n) 0 (by simp) S64x8x20000 _ rfl rfl 0 rfl
      (ix3 s b ⟨n.val, h0⟩) (fun d hd => match d with | ⟨0, _⟩ => rfl | ⟨1, _⟩ => rfl | ⟨2, _⟩ => absurd rfl hd)
      (by show 0 + n.val = n.val; omega)).trans (ref_words (argsOf m c) hA s b ⟨n.val, h0⟩)
  rw [dif_neg h0]
  by_cases h1 : n.val < 40000
  · rw [dif_pos h1]
    exact (concatenate_apply_piece (2 : Fin S64x8x267735.rank) _ _ (ix3 s b n) 1 (by simp) S64x8x20000 _ rfl rfl 20000 rfl
      (ix3 s b ⟨n.val - 20000, by omega⟩) (fun d hd => match d with | ⟨0, _⟩ => rfl | ⟨1, _⟩ => rfl | ⟨2, _⟩ => absurd rfl hd)
      (by show 20000 + (n.val - 20000) = n.val; omega)).trans (ref_tail1 (argsOf m c) hA s b ⟨n.val - 20000, by omega⟩)
  rw [dif_neg h1]
  by_cases h2 : n.val < 200000
  · rw [dif_pos h2]
    exact (concatenate_apply_piece (2 : Fin S64x8x267735.rank) _ _ (ix3 s b n) 2 (by simp) S64x8x160000 _ rfl rfl 40000 rfl
      (ix3 s b ⟨n.val - 40000, by omega⟩) (fun d hd => match d with | ⟨0, _⟩ => rfl | ⟨1, _⟩ => rfl | ⟨2, _⟩ => absurd rfl hd)
      (by show 40000 + (n.val - 40000) = n.val; omega)).trans (ref_tail2 (argsOf m c) hA s b ⟨n.val - 40000, by omega⟩)
  rw [dif_neg h2]
  exact (concatenate_apply_piece (2 : Fin S64x8x267735.rank) _ _ (ix3 s b n) 3 (by simp) S64x8x67735 _ rfl rfl 200000 (by simp)
      (ix3 s b ⟨n.val - 200000, by omega⟩) (fun d hd => match d with | ⟨0, _⟩ => rfl | ⟨1, _⟩ => rfl | ⟨2, _⟩ => absurd rfl hd)
      (by show 200000 + (n.val - 200000) = n.val; omega)).trans (ref_tail3 (argsOf m c) hA s b ⟨n.val - 200000, by omega⟩)

set_option maxRecDepth 8192 in

theorem ref_loss {F : FTy → Type} [FloatOps F] (m : (ℓ : Loc nD τ sig) → Buf (Elt F) ℓ) (c : Dev nD) :
    Cert.ReferenceIdeal.ValueP.res_main_v48 (F := F) m c
      = Cert.ReferenceIdeal.ValueP.lossF (Cert.ReferenceIdeal.ValueP.res_main_v42 (F := F) m c) (m ((c.tc : Thread nD τ).loc main_arg1)) := by
  unfold Cert.ReferenceIdeal.ValueP.res_main_v48 Cert.ReferenceIdeal.ValueP.res_main_v42 Cert.ReferenceIdeal.ValueP.lossF
  rfl

end Cert.ReferenceIdeal.ValR

end
-- ==== Proof.lean ====
import proofs.«411270_j76149770158357_2_alg».proof.Defs
import proofs.«411270_j76149770158357_2_alg».proof.Proof.Gen.Kernel
import proofs.«411270_j76149770158357_2_alg».proof.Proof.Gen.KernelIdeal
import proofs.«411270_j76149770158357_2_alg».proof.Proof.Gen.ReferenceIdeal
import proofs.«411270_j76149770158357_2_alg».proof.Proof.Gen.Pre_finite_inputs
import proofs.«411270_j76149770158357_2_alg».proof.Proof.K.Run
import proofs.«411270_j76149770158357_2_alg».proof.Proof.KI.Run
import proofs.«411270_j76149770158357_2_alg».proof.Proof.KI.ValOut
import proofs.«411270_j76149770158357_2_alg».proof.Proof.KI.Finite
import proofs.«411270_j76149770158357_2_alg».proof.Proof.Ref.RunProof
import proofs.«411270_j76149770158357_2_alg».proof.Proof.Ref.ValOut
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => (θ_run Cert.Kernel.defs _ _).mono
  (fun r h c => by and_intros <;> exact Cert.Kernel.Frm.kept_arg m c r.2.mem (h c) _ (by decide)) (Cert.Kernel.Frm.run_all m ρ)

theorem frame_ki : Cert.frame_KernelIdeal := fun m ρ _ => (θ_run Cert.KernelIdeal.defs _ _).mono
  (fun r h c => by and_intros <;> exact Cert.KernelIdeal.Frm.kept_arg m c r.2.mem (h c) _ (by decide)) (Cert.KernelIdeal.Frm.run_all m ρ)

theorem frame_ri : Cert.frame_ReferenceIdeal := fun m ρ _ =>
  (θ_run Cert.ReferenceIdeal.defs _ _).mono (fun _ h c => (h c).2.2) (Cert.ReferenceIdeal.ValueP.run (F := Ideal) m ρ)

theorem lossOf_eq {F : FTy → Type} [FloatOps F] :
    Cert.ReferenceIdeal.ValueP.lossF (F := F) = Cert.KernelIdeal.Val.lossOf (F := F) := by
  unfold Cert.ReferenceIdeal.ValueP.lossF Cert.KernelIdeal.Val.lossOf
  rfl

-- Both output arrays are the one function `Model.outAt` of the arguments (the reference's for real-valued arguments, which the precondition gives); the losses are one function of the output and the targets.
theorem algebraic : Cert.algebraic_KernelIdeal_ReferenceIdeal := by
  intro m ρ m' ρ' hpre hagree
  open Cert.KernelIdeal Cert.KernelIdeal.Frm in
  refine ⟨fun c => W11 (F := Ideal) m c (Proc.devRef .tc Cert.KernelIdeal.main_v24),
    fun c => W11 (F := Ideal) m c (Proc.devRef .tc Cert.KernelIdeal.main_v30), ?_, ?_⟩
  · open Cert.KernelIdeal Cert.KernelIdeal.Frm in
    exact (θ_run Cert.KernelIdeal.defs _ _).mono (fun r h c => by
      refine ⟨h c _ (mem_uc main_v24 (by decide)), h c _ (mem_uc main_v30 (by decide)), ?_⟩
      and_intros <;> exact kept_arg m c r.2.mem (h c) _ (by decide)) (run_all m ρ)
  · refine (θ_run Cert.ReferenceIdeal.defs _ _).mono (fun r h c => ?_) (Cert.ReferenceIdeal.ValueP.run (F := Ideal) m' ρ')
    obtain ⟨h0, h1, h2, h3, h4, h5, h6, h7, h8, h9, h10, h11, h12, h13, h14, h15⟩ := hagree c

    have hargs : Cert.ReferenceIdeal.ValR.argsOf m' c = Cert.KernelIdeal.Val.argsOf m c := by
      unfold Cert.ReferenceIdeal.ValR.argsOf Cert.KernelIdeal.Val.argsOf
      rw [h0, h2, h3, h4, h5, h6, h7, h8, h9, h10, h11, h12, h13, h14, h15]
    have hreal : (Cert.ReferenceIdeal.ValR.argsOf m' c).IsReal := hargs ▸ Cert.KernelIdeal.Val.isReal_of_pre m hpre c

    have hout : Cert.ReferenceIdeal.ValueP.res_main_v42 (F := Ideal) m' c
        = W11 (F := Ideal) m c (Proc.devRef .tc Cert.KernelIdeal.main_v24) := by
      funext i
      obtain ⟨s, b, n, rfl⟩ : ∃ (s : Fin 64) (b : Fin 8) (n : Fin 267735), i = ix3 s b n := ⟨i 0, i 1, i 2, eq_ix3 i⟩
      exact (Cert.ReferenceIdeal.ValR.ref_out m' c hreal s b n).trans
        ((congrArg (fun A => Cert.Model.outAt A (Cert.Model.tok s b) n) hargs).trans (Cert.KernelIdeal.Val.out_eq m c s b n).symm)
    refine ⟨(h c).1.trans hout, (h c).2.1.trans ?_, (h c).2.2⟩
    rw [Cert.ReferenceIdeal.ValR.ref_loss, hout, h1, lossOf_eq]
    exact (Cert.KernelIdeal.Val.loss_eq (F := Ideal) m c).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
